-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1715) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x352x352 : Shape := ⟨4, ![8, 1, 352, 352]⟩
abbrev S8x3x352x352 : Shape := ⟨4, ![8, 3, 352, 352]⟩
abbrev S_ : Shape := ⟨0, ![]⟩

class Facts : Prop where
  bcast_S_S8x1x352x352 : S_.BroadcastsInDim S8x1x352x352 (![] : Fin 0 → Fin S8x1x352x352.rank)
  reducesTo_S8x1x352x352_S_d0_1_2_3 : S8x1x352x352.ReducesTo [0, 1, 2, 3] S_
  h_S_ : 0 < S_.numel
  bcast_S_S8x3x352x352 : S_.BroadcastsInDim S8x3x352x352 (![] : Fin 0 → Fin S8x3x352x352.rank)
  reducesTo_S8x3x352x352_S_d0_1_2_3 : S8x3x352x352.ReducesTo [0, 1, 2, 3] S_

variable [Facts]

def fn {F : FTy → Type} [FloatOps F] (main_arg0 : FVec F S8x1x352x352 .f32) (main_arg1 : FVec F S8x3x352x352 .f32) : IVec S_ 1 :=
  let main_v0 : FVec F S8x1x352x352 .f32 := Host.absf main_arg0
  let main_cst : FVec F S_ .f32 := constant S_ .f32 0x7F800000#32
  let main_v1 : FVec F S8x1x352x352 .f32 := broadcastInDim S8x1x352x352 ![] bcast_S_S8x1x352x352 main_cst
  let main_v2 : IVec S8x1x352x352 1 := cmpf .olt main_v0 main_v1
  let main_c : IVec S_ 1 := constantI S_ 1 1#1
  let main_v3 : IVec S_ 1 := (fun x v => Host.reduce IntOp.andi x v reducesTo_S8x1x352x352_S_d0_1_2_3 h_S_) main_v2 main_c
  let main_v4 : FVec F S8x3x352x352 .f32 := Host.absf main_arg1
  let main_cst_0 : FVec F S_ .f32 := constant S_ .f32 0x7F800000#32
  let main_v5 : FVec F S8x3x352x352 .f32 := broadcastInDim S8x3x352x352 ![] bcast_S_S8x3x352x352 main_cst_0
  let main_v6 : IVec S8x3x352x352 1 := cmpf .olt main_v4 main_v5
  let main_c_1 : IVec S_ 1 := constantI S_ 1 1#1
  let main_v7 : IVec S_ 1 := (fun x v => Host.reduce IntOp.andi x v reducesTo_S8x3x352x352_S_d0_1_2_3 h_S_) main_v6 main_c_1
  let main_v8 : IVec S_ 1 := andi main_v3 main_v7
  main_v8
-- ==== Kernel.lean ====
abbrev S8x1x352x352 : Shape := ⟨4, ![8, 1, 352, 352]⟩
abbrev S8x3x352x352 : Shape := ⟨4, ![8, 3, 352, 352]⟩
abbrev S_ : Shape := ⟨0, ![]⟩
abbrev S8x4x352x352 : Shape := ⟨4, ![8, 4, 352, 352]⟩
abbrev S8x4x362x362 : Shape := ⟨4, ![8, 4, 362, 362]⟩
abbrev S8x1x1 : Shape := ⟨3, ![8, 1, 1]⟩
abbrev S1x4x362x362 : Shape := ⟨4, ![1, 4, 362, 362]⟩
abbrev S1x1x352x352 : Shape := ⟨4, ![1, 1, 352, 352]⟩
abbrev S1x1x1 : Shape := ⟨3, ![1, 1, 1]⟩
abbrev S4x362x362 : Shape := ⟨3, ![4, 362, 362]⟩
abbrev S3x352x352 : Shape := ⟨3, ![3, 352, 352]⟩
abbrev S1x352x352 : Shape := ⟨3, ![1, 352, 352]⟩
abbrev S4x352x352 : Shape := ⟨3, ![4, 352, 352]⟩
abbrev S352x352 : Shape := ⟨2, ![352, 352]⟩
abbrev S1x352 : Shape := ⟨2, ![1, 352]⟩
abbrev S1x352x1 : Shape := ⟨3, ![1, 352, 1]⟩
abbrev S1x1 : Shape := ⟨2, ![1, 1]⟩

abbrev nBuf : Space → Nat
  | .hbm => 32
  | .vmem => 8
  | .smem => 0
  | _ => 0

abbrev bufTy : (tb : Table) → Fin (tcTables nBuf tb) → BufTy
  | .hbm, ⟨0, _⟩ => ⟨S8x1x352x352, .f32⟩
  | .hbm, ⟨1, _⟩ => ⟨S8x3x352x352, .f32⟩
  | .hbm, ⟨2, _⟩ => ⟨S_, .f32⟩
  | .hbm, ⟨3, _⟩ => ⟨S8x1x352x352, .f32⟩
  | .hbm, ⟨4, _⟩ => ⟨S8x1x352x352, .i1⟩
  | .hbm, ⟨5, _⟩ => ⟨S8x1x352x352, .f32⟩
  | .hbm, ⟨6, _⟩ => ⟨S_, .f32⟩
  | .hbm, ⟨7, _⟩ => ⟨S8x1x352x352, .f32⟩
  | .hbm, ⟨8, _⟩ => ⟨S8x1x352x352, .f32⟩
  | .hbm, ⟨9, _⟩ => ⟨S_, .f32⟩
  | .hbm, ⟨10, _⟩ => ⟨S_, .f32⟩
  | .hbm, ⟨11, _⟩ => ⟨S8x1x352x352, .f32⟩
  | .hbm, ⟨12, _⟩ => ⟨S_, .f32⟩
  | .hbm, ⟨13, _⟩ => ⟨S8x1x352x352, .f32⟩
  | .hbm, ⟨14, _⟩ => ⟨S8x1x352x352, .f32⟩
  | .hbm, ⟨15, _⟩ => ⟨S_, .f32⟩
  | .hbm, ⟨16, _⟩ => ⟨S_, .f32⟩
  | .hbm, ⟨17, _⟩ => ⟨S8x1x352x352, .f32⟩
  | .hbm, ⟨18, _⟩ => ⟨S8x1x352x352, .f32⟩
  | .hbm, ⟨19, _⟩ => ⟨S8x4x352x352, .f32⟩
  | .hbm, ⟨20, _⟩ => ⟨S_, .i32⟩
  | .hbm, ⟨21, _⟩ => ⟨S_, .f32⟩
  | .hbm, ⟨22, _⟩ => ⟨S8x4x362x362, .f32⟩
  | .hbm, ⟨23, _⟩ => ⟨S8x1x1, .f32⟩
  | .hbm, ⟨24, _⟩ => ⟨S8x1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1x4x362x362, .f32⟩
  | .local _ .vmem, ⟨1, _⟩ => ⟨S1x4x362x362, .f32⟩
  | .local _ .vmem, ⟨2, _⟩ => ⟨S1x1x352x352, .f32⟩
  | .local _ .vmem, ⟨3, _⟩ => ⟨S1x1x352x352, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S8x1x352x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_cst_4 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x362x362 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x352x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8x1x352x352 : S_.BroadcastsInDim S8x1x352x352 (![] : Fin 0 → Fin S8x1x352x352.rank)
  bcast_S_S_ : S_.BroadcastsInDim S_ (![] : Fin 0 → Fin S_.rank)
  reduceWindows_S8x1x352x352_S8x1x352x352_w1s1p0_0_w1s1p0_0_w5s1p2_2_w5s1p2_2 : S8x1x352x352.ReduceWindows (![1, 1, 5, 5] : Fin 4 → Nat) ![1, 1, 1, 1] ![0, 0, 2, 2] ![0, 0, 2, 2] S8x1x352x352
  h_S_ : 0 < S_.numel
  concatenates_S8x3x352x352_S8x1x352x352_S8x4x352x352_d1 : Shape.Concatenates [S8x3x352x352, S8x1x352x352] S8x4x352x352 1
  pads_S8x4x352x352_S8x4x362x362_000_000_550_550 : S8x4x352x352.Pads (![0, 0, 5, 5] : Fin 4 → Nat) ![0, 0, 5, 5] ![0, 0, 0, 0] S8x4x362x362
  inb_S1x4x362x362_S1x4x362x362_0_0_0_0 : ∀ a, (![0, 0, 0, 0] : Fin 4 → Nat) a + S1x4x362x362.size a ≤ S1x4x362x362.size a
  h_S1x4x362x362 : 0 < S1x4x362x362.numel
  shapeCasts_S1x4x362x362_S4x362x362 : S1x4x362x362.ShapeCasts S4x362x362
  slices_S4x362x362_o0_5_5_S3x352x352 : S4x362x362.Slices ![0, 5, 5] S3x352x352
  slices_S4x362x362_o3_5_5_S1x352x352 : S4x362x362.Slices ![3, 5, 5] S1x352x352
  slices_S4x362x362_o0_0_0_S4x352x352 : S4x362x362.Slices ![0, 0, 0] S4x352x352
  slices_S4x352x352_o0_0_0_S3x352x352 : S4x352x352.Slices ![0, 0, 0] S3x352x352
  slices_S4x352x352_o3_0_0_S1x352x352 : S4x352x352.Slices ![3, 0, 0] S1x352x352
  reduces_S3x352x352_S352x352 : S3x352x352.Reduces [0] S352x352
  shapeCasts_S352x352_S1x352x352 : S352x352.ShapeCasts S1x352x352
  slices_S4x362x362_o0_0_1_S4x352x352 : S4x362x362.Slices ![0, 0, 1] S4x352x352
  slices_S4x362x362_o0_0_2_S4x352x352 : S4x362x362.Slices ![0, 0, 2] S4x352x352
  slices_S4x362x362_o0_0_3_S4x352x352 : S4x362x362.Slices ![0, 0, 3] S4x352x352
  slices_S4x362x362_o0_0_4_S4x352x352 : S4x362x362.Slices ![0, 0, 4] S4x352x352
  slices_S4x362x362_o0_0_5_S4x352x352 : S4x362x362.Slices ![0, 0, 5] S4x352x352
  slices_S4x362x362_o0_0_6_S4x352x352 : S4x362x362.Slices ![0, 0, 6] S4x352x352
  slices_S4x362x362_o0_0_7_S4x352x352 : S4x362x362.Slices ![0, 0, 7] S4x352x352
  slices_S4x362x362_o0_0_8_S4x352x352 : S4x362x362.Slices ![0, 0, 8] S4x352x352
  slices_S4x362x362_o0_0_9_S4x352x352 : S4x362x362.Slices ![0, 0, 9] S4x352x352
  slices_S4x362x362_o0_0_10_S4x352x352 : S4x362x362.Slices ![0, 0, 10] S4x352x352
  slices_S4x362x362_o0_1_0_S4x352x352 : S4x362x362.Slices ![0, 1, 0] S4x352x352
  slices_S4x362x362_o0_1_1_S4x352x352 : S4x362x362.Slices ![0, 1, 1] S4x352x352
  slices_S4x362x362_o0_1_2_S4x352x352 : S4x362x362.Slices ![0, 1, 2] S4x352x352
  slices_S4x362x362_o0_1_3_S4x352x352 : S4x362x362.Slices ![0, 1, 3] S4x352x352
  slices_S4x362x362_o0_1_4_S4x352x352 : S4x362x362.Slices ![0, 1, 4] S4x352x352
  slices_S4x362x362_o0_1_5_S4x352x352 : S4x362x362.Slices ![0, 1, 5] S4x352x352
  slices_S4x362x362_o0_1_6_S4x352x352 : S4x362x362.Slices ![0, 1, 6] S4x352x352
  slices_S4x362x362_o0_1_7_S4x352x352 : S4x362x362.Slices ![0, 1, 7] S4x352x352
  slices_S4x362x362_o0_1_8_S4x352x352 : S4x362x362.Slices ![0, 1, 8] S4x352x352
  slices_S4x362x362_o0_1_9_S4x352x352 : S4x362x362.Slices ![0, 1, 9] S4x352x352
  slices_S4x362x362_o0_1_10_S4x352x352 : S4x362x362.Slices ![0, 1, 10] S4x352x352
  slices_S4x362x362_o0_2_0_S4x352x352 : S4x362x362.Slices ![0, 2, 0] S4x352x352
  slices_S4x362x362_o0_2_1_S4x352x352 : S4x362x362.Slices ![0, 2, 1] S4x352x352
  slices_S4x362x362_o0_2_2_S4x352x352 : S4x362x362.Slices ![0, 2, 2] S4x352x352
  slices_S4x362x362_o0_2_3_S4x352x352 : S4x362x362.Slices ![0, 2, 3] S4x352x352
  slices_S4x362x362_o0_2_4_S4x352x352 : S4x362x362.Slices ![0, 2, 4] S4x352x352
  slices_S4x362x362_o0_2_5_S4x352x352 : S4x362x362.Slices ![0, 2, 5] S4x352x352
  slices_S4x362x362_o0_2_6_S4x352x352 : S4x362x362.Slices ![0, 2, 6] S4x352x352
  slices_S4x362x362_o0_2_7_S4x352x352 : S4x362x362.Slices ![0, 2, 7] S4x352x352
  slices_S4x362x362_o0_2_8_S4x352x352 : S4x362x362.Slices ![0, 2, 8] S4x352x352
  slices_S4x362x362_o0_2_9_S4x352x352 : S4x362x362.Slices ![0, 2, 9] S4x352x352
  slices_S4x362x362_o0_2_10_S4x352x352 : S4x362x362.Slices ![0, 2, 10] S4x352x352
  slices_S4x362x362_o0_3_0_S4x352x352 : S4x362x362.Slices ![0, 3, 0] S4x352x352
  slices_S4x362x362_o0_3_1_S4x352x352 : S4x362x362.Slices ![0, 3, 1] S4x352x352
  slices_S4x362x362_o0_3_2_S4x352x352 : S4x362x362.Slices ![0, 3, 2] S4x352x352
  slices_S4x362x362_o0_3_3_S4x352x352 : S4x362x362.Slices ![0, 3, 3] S4x352x352
  slices_S4x362x362_o0_3_4_S4x352x352 : S4x362x362.Slices ![0, 3, 4] S4x352x352
  slices_S4x362x362_o0_3_5_S4x352x352 : S4x362x362.Slices ![0, 3, 5] S4x352x352
  slices_S4x362x362_o0_3_6_S4x352x352 : S4x362x362.Slices ![0, 3, 6] S4x352x352
  slices_S4x362x362_o0_3_7_S4x352x352 : S4x362x362.Slices ![0, 3, 7] S4x352x352
  slices_S4x362x362_o0_3_8_S4x352x352 : S4x362x362.Slices ![0, 3, 8] S4x352x352
  slices_S4x362x362_o0_3_9_S4x352x352 : S4x362x362.Slices ![0, 3, 9] S4x352x352
  slices_S4x362x362_o0_3_10_S4x352x352 : S4x362x362.Slices ![0, 3, 10] S4x352x352
  slices_S4x362x362_o0_4_0_S4x352x352 : S4x362x362.Slices ![0, 4, 0] S4x352x352
  slices_S4x362x362_o0_4_1_S4x352x352 : S4x362x362.Slices ![0, 4, 1] S4x352x352
  slices_S4x362x362_o0_4_2_S4x352x352 : S4x362x362.Slices ![0, 4, 2] S4x352x352
  slices_S4x362x362_o0_4_3_S4x352x352 : S4x362x362.Slices ![0, 4, 3] S4x352x352
  slices_S4x362x362_o0_4_4_S4x352x352 : S4x362x362.Slices ![0, 4, 4] S4x352x352
  slices_S4x362x362_o0_4_5_S4x352x352 : S4x362x362.Slices ![0, 4, 5] S4x352x352
  slices_S4x362x362_o0_4_6_S4x352x352 : S4x362x362.Slices ![0, 4, 6] S4x352x352
  slices_S4x362x362_o0_4_7_S4x352x352 : S4x362x362.Slices ![0, 4, 7] S4x352x352
  slices_S4x362x362_o0_4_8_S4x352x352 : S4x362x362.Slices ![0, 4, 8] S4x352x352
  slices_S4x362x362_o0_4_9_S4x352x352 : S4x362x362.Slices ![0, 4, 9] S4x352x352
  slices_S4x362x362_o0_4_10_S4x352x352 : S4x362x362.Slices ![0, 4, 10] S4x352x352
  slices_S4x362x362_o0_5_0_S4x352x352 : S4x362x362.Slices ![0, 5, 0] S4x352x352
  slices_S4x362x362_o0_5_1_S4x352x352 : S4x362x362.Slices ![0, 5, 1] S4x352x352
  slices_S4x362x362_o0_5_2_S4x352x352 : S4x362x362.Slices ![0, 5, 2] S4x352x352
  slices_S4x362x362_o0_5_3_S4x352x352 : S4x362x362.Slices ![0, 5, 3] S4x352x352
  slices_S4x362x362_o0_5_4_S4x352x352 : S4x362x362.Slices ![0, 5, 4] S4x352x352
  slices_S4x362x362_o0_5_5_S4x352x352 : S4x362x362.Slices ![0, 5, 5] S4x352x352
  slices_S4x362x362_o0_5_6_S4x352x352 : S4x362x362.Slices ![0, 5, 6] S4x352x352
  slices_S4x362x362_o0_5_7_S4x352x352 : S4x362x362.Slices ![0, 5, 7] S4x352x352
  slices_S4x362x362_o0_5_8_S4x352x352 : S4x362x362.Slices ![0, 5, 8] S4x352x352
  slices_S4x362x362_o0_5_9_S4x352x352 : S4x362x362.Slices ![0, 5, 9] S4x352x352
  slices_S4x362x362_o0_5_10_S4x352x352 : S4x362x362.Slices ![0, 5, 10] S4x352x352
  slices_S4x362x362_o0_6_0_S4x352x352 : S4x362x362.Slices ![0, 6, 0] S4x352x352
  slices_S4x362x362_o0_6_1_S4x352x352 : S4x362x362.Slices ![0, 6, 1] S4x352x352
  slices_S4x362x362_o0_6_2_S4x352x352 : S4x362x362.Slices ![0, 6, 2] S4x352x352
  slices_S4x362x362_o0_6_3_S4x352x352 : S4x362x362.Slices ![0, 6, 3] S4x352x352
  slices_S4x362x362_o0_6_4_S4x352x352 : S4x362x362.Slices ![0, 6, 4] S4x352x352
  slices_S4x362x362_o0_6_5_S4x352x352 : S4x362x362.Slices ![0, 6, 5] S4x352x352
  slices_S4x362x362_o0_6_6_S4x352x352 : S4x362x362.Slices ![0, 6, 6] S4x352x352
  slices_S4x362x362_o0_6_7_S4x352x352 : S4x362x362.Slices ![0, 6, 7] S4x352x352
  slices_S4x362x362_o0_6_8_S4x352x352 : S4x362x362.Slices ![0, 6, 8] S4x352x352
  slices_S4x362x362_o0_6_9_S4x352x352 : S4x362x362.Slices ![0, 6, 9] S4x352x352
  slices_S4x362x362_o0_6_10_S4x352x352 : S4x362x362.Slices ![0, 6, 10] S4x352x352
  slices_S4x362x362_o0_7_0_S4x352x352 : S4x362x362.Slices ![0, 7, 0] S4x352x352
  slices_S4x362x362_o0_7_1_S4x352x352 : S4x362x362.Slices ![0, 7, 1] S4x352x352
  slices_S4x362x362_o0_7_2_S4x352x352 : S4x362x362.Slices ![0, 7, 2] S4x352x352
  slices_S4x362x362_o0_7_3_S4x352x352 : S4x362x362.Slices ![0, 7, 3] S4x352x352
  slices_S4x362x362_o0_7_4_S4x352x352 : S4x362x362.Slices ![0, 7, 4] S4x352x352
  slices_S4x362x362_o0_7_5_S4x352x352 : S4x362x362.Slices ![0, 7, 5] S4x352x352
  slices_S4x362x362_o0_7_6_S4x352x352 : S4x362x362.Slices ![0, 7, 6] S4x352x352
  slices_S4x362x362_o0_7_7_S4x352x352 : S4x362x362.Slices ![0, 7, 7] S4x352x352
  slices_S4x362x362_o0_7_8_S4x352x352 : S4x362x362.Slices ![0, 7, 8] S4x352x352
  slices_S4x362x362_o0_7_9_S4x352x352 : S4x362x362.Slices ![0, 7, 9] S4x352x352
  slices_S4x362x362_o0_7_10_S4x352x352 : S4x362x362.Slices ![0, 7, 10] S4x352x352
  slices_S4x362x362_o0_8_0_S4x352x352 : S4x362x362.Slices ![0, 8, 0] S4x352x352
  slices_S4x362x362_o0_8_1_S4x352x352 : S4x362x362.Slices ![0, 8, 1] S4x352x352
  slices_S4x362x362_o0_8_2_S4x352x352 : S4x362x362.Slices ![0, 8, 2] S4x352x352
  slices_S4x362x362_o0_8_3_S4x352x352 : S4x362x362.Slices ![0, 8, 3] S4x352x352
  slices_S4x362x362_o0_8_4_S4x352x352 : S4x362x362.Slices ![0, 8, 4] S4x352x352
  slices_S4x362x362_o0_8_5_S4x352x352 : S4x362x362.Slices ![0, 8, 5] S4x352x352
  slices_S4x362x362_o0_8_6_S4x352x352 : S4x362x362.Slices ![0, 8, 6] S4x352x352
  slices_S4x362x362_o0_8_7_S4x352x352 : S4x362x362.Slices ![0, 8, 7] S4x352x352
  slices_S4x362x362_o0_8_8_S4x352x352 : S4x362x362.Slices ![0, 8, 8] S4x352x352
  slices_S4x362x362_o0_8_9_S4x352x352 : S4x362x362.Slices ![0, 8, 9] S4x352x352
  slices_S4x362x362_o0_8_10_S4x352x352 : S4x362x362.Slices ![0, 8, 10] S4x352x352
  slices_S4x362x362_o0_9_0_S4x352x352 : S4x362x362.Slices ![0, 9, 0] S4x352x352
  slices_S4x362x362_o0_9_1_S4x352x352 : S4x362x362.Slices ![0, 9, 1] S4x352x352
  slices_S4x362x362_o0_9_2_S4x352x352 : S4x362x362.Slices ![0, 9, 2] S4x352x352
  slices_S4x362x362_o0_9_3_S4x352x352 : S4x362x362.Slices ![0, 9, 3] S4x352x352
  slices_S4x362x362_o0_9_4_S4x352x352 : S4x362x362.Slices ![0, 9, 4] S4x352x352
  slices_S4x362x362_o0_9_5_S4x352x352 : S4x362x362.Slices ![0, 9, 5] S4x352x352
  slices_S4x362x362_o0_9_6_S4x352x352 : S4x362x362.Slices ![0, 9, 6] S4x352x352
  slices_S4x362x362_o0_9_7_S4x352x352 : S4x362x362.Slices ![0, 9, 7] S4x352x352
  slices_S4x362x362_o0_9_8_S4x352x352 : S4x362x362.Slices ![0, 9, 8] S4x352x352
  slices_S4x362x362_o0_9_9_S4x352x352 : S4x362x362.Slices ![0, 9, 9] S4x352x352
  slices_S4x362x362_o0_9_10_S4x352x352 : S4x362x362.Slices ![0, 9, 10] S4x352x352
  slices_S4x362x362_o0_10_0_S4x352x352 : S4x362x362.Slices ![0, 10, 0] S4x352x352
  slices_S4x362x362_o0_10_1_S4x352x352 : S4x362x362.Slices ![0, 10, 1] S4x352x352
  slices_S4x362x362_o0_10_2_S4x352x352 : S4x362x362.Slices ![0, 10, 2] S4x352x352
  slices_S4x362x362_o0_10_3_S4x352x352 : S4x362x362.Slices ![0, 10, 3] S4x352x352
  slices_S4x362x362_o0_10_4_S4x352x352 : S4x362x362.Slices ![0, 10, 4] S4x352x352
  slices_S4x362x362_o0_10_5_S4x352x352 : S4x362x362.Slices ![0, 10, 5] S4x352x352
  slices_S4x362x362_o0_10_6_S4x352x352 : S4x362x362.Slices ![0, 10, 6] S4x352x352
  slices_S4x362x362_o0_10_7_S4x352x352 : S4x362x362.Slices ![0, 10, 7] S4x352x352
  slices_S4x362x362_o0_10_8_S4x352x352 : S4x362x362.Slices ![0, 10, 8] S4x352x352
  slices_S4x362x362_o0_10_9_S4x352x352 : S4x362x362.Slices ![0, 10, 9] S4x352x352
  slices_S4x362x362_o0_10_10_S4x352x352 : S4x362x362.Slices ![0, 10, 10] S4x352x352
  inb_S1x1x352x352_S1x1x352x352_0_0_0_0 : ∀ a, (![0, 0, 0, 0] : Fin 4 → Nat) a + S1x1x352x352.size a ≤ S1x1x352x352.size a
  h_S1x1x352x352 : 0 < S1x1x352x352.numel
  shapeCasts_S1x1x352x352_S1x352x352 : S1x1x352x352.ShapeCasts S1x352x352
  reduces_S1x352x352_S1x352 : S1x352x352.Reduces [2] S1x352
  shapeCasts_S1x352_S1x352x1 : S1x352.ShapeCasts S1x352x1
  reduces_S1x352x1_S1x1 : S1x352x1.Reduces [1] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S8x1x1_S_d0_1_2 : S8x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x362x362.size a ≤ S8x4x362x362.size a
  hwx0_0 : ∀ i : grid0.Coords, EltTy.bits .f32 = 32 ∨ (Rect.block (s := S8x4x362x362) S1x4x362x362.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x352x352.size a ≤ S8x1x352x352.size a
  hwx0_1 : ∀ i : grid0.Coords, EltTy.bits .f32 = 32 ∨ (Rect.block (s := S8x1x352x352) S1x1x352x352.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S8x1x1.size a
  hwx0_2 : ∀ i : grid0.Coords, EltTy.bits .f32 = 32 ∨ (Rect.block (s := S8x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)

variable [Facts₀]

abbrev win0_0 : Pipeline.Window sig grid0 :=
  Pipeline.Window.ofSpec (Memref.whole main_v13) S1x4x362x362.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x1x352x352.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1x352x352 : Shape := ⟨4, ![8, 1, 352, 352]⟩
abbrev S8x3x352x352 : Shape := ⟨4, ![8, 3, 352, 352]⟩
abbrev S_ : Shape := ⟨0, ![]⟩
abbrev S8x4x352x352 : Shape := ⟨4, ![8, 4, 352, 352]⟩
abbrev S8x4x362x362 : Shape := ⟨4, ![8, 4, 362, 362]⟩
abbrev S8x352x352 : Shape := ⟨3, ![8, 352, 352]⟩

abbrev nBuf : Space → Nat
  | .hbm => 1971
  | .vmem => 0
  | .smem => 0
  | _ => 0

abbrev hbmTy0_0 (i : Nat) : BufTy := match i % 128 with
  | 0 => ⟨S8x1x352x352, .f32⟩
  | 1 => ⟨S8x3x352x352, .f32⟩
  | 2 => ⟨S_, .f32⟩
  | 3 => ⟨S8x1x352x352, .f32⟩
  | 4 => ⟨S8x1x352x352, .i1⟩
  | 5 => ⟨S8x1x352x352, .f32⟩
  | 6 => ⟨S_, .f32⟩
  | 7 => ⟨S8x1x352x352, .f32⟩
  | 8 => ⟨S8x1x352x352, .f32⟩
  | 9 => ⟨S_, .f32⟩
  | 10 => ⟨S_, .f32⟩
  | 11 => ⟨S8x1x352x352, .f32⟩
  | 12 => ⟨S_, .f32⟩
  | 13 => ⟨S8x1x352x352, .f32⟩
  | 14 => ⟨S8x1x352x352, .f32⟩
  | 15 => ⟨S_, .f32⟩
  | 16 => ⟨S_, .f32⟩
  | 17 => ⟨S8x1x352x352, .f32⟩
  | 18 => ⟨S8x1x352x352, .f32⟩
  | 19 => ⟨S8x4x352x352, .f32⟩
  | 20 => ⟨S_, .i32⟩
  | 21 => ⟨S_, .f32⟩
  | 22 => ⟨S8x4x362x362, .f32⟩
  | 23 => ⟨S8x3x352x352, .f32⟩
  | 24 => ⟨S8x1x352x352, .f32⟩
  | 25 => ⟨S_, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_1 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_2 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_3 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_4 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_5 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_6 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_7 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_8 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_9 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_10 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_11 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_12 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_13 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_14 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x4x352x352, .f32⟩
  | 44 => ⟨S8x3x352x352, .f32⟩
  | 45 => ⟨S8x3x352x352, .f32⟩
  | 46 => ⟨S8x1x352x352, .f32⟩
  | 47 => ⟨S8x1x352x352, .f32⟩
  | 48 => ⟨S8x1x352x352, .f32⟩
  | 49 => ⟨S8x3x352x352, .f32⟩
  | 50 => ⟨S_, .f32⟩
  | 51 => ⟨S8x352x352, .f32⟩
  | 52 => ⟨S8x1x352x352, .f32⟩
  | 53 => ⟨S_, .f32⟩
  | 54 => ⟨S8x1x352x352, .f32⟩
  | 55 => ⟨S8x1x352x352, .f32⟩
  | 56 => ⟨S8x1x352x352, .f32⟩
  | 57 => ⟨S8x1x352x352, .f32⟩
  | 58 => ⟨S8x1x352x352, .f32⟩
  | 59 => ⟨S8x4x352x352, .f32⟩
  | 60 => ⟨S8x3x352x352, .f32⟩
  | 61 => ⟨S8x3x352x352, .f32⟩
  | 62 => ⟨S8x1x352x352, .f32⟩
  | 63 => ⟨S8x1x352x352, .f32⟩
  | 64 => ⟨S8x1x352x352, .f32⟩
  | 65 => ⟨S8x3x352x352, .f32⟩
  | 66 => ⟨S_, .f32⟩
  | 67 => ⟨S8x352x352, .f32⟩
  | 68 => ⟨S8x1x352x352, .f32⟩
  | 69 => ⟨S_, .f32⟩
  | 70 => ⟨S8x1x352x352, .f32⟩
  | 71 => ⟨S8x1x352x352, .f32⟩
  | 72 => ⟨S8x1x352x352, .f32⟩
  | 73 => ⟨S8x1x352x352, .f32⟩
  | 74 => ⟨S8x1x352x352, .f32⟩
  | 75 => ⟨S8x4x352x352, .f32⟩
  | 76 => ⟨S8x3x352x352, .f32⟩
  | 77 => ⟨S8x3x352x352, .f32⟩
  | 78 => ⟨S8x1x352x352, .f32⟩
  | 79 => ⟨S8x1x352x352, .f32⟩
  | 80 => ⟨S8x1x352x352, .f32⟩
  | 81 => ⟨S8x3x352x352, .f32⟩
  | 82 => ⟨S_, .f32⟩
  | 83 => ⟨S8x352x352, .f32⟩
  | 84 => ⟨S8x1x352x352, .f32⟩
  | 85 => ⟨S_, .f32⟩
  | 86 => ⟨S8x1x352x352, .f32⟩
  | 87 => ⟨S8x1x352x352, .f32⟩
  | 88 => ⟨S8x1x352x352, .f32⟩
  | 89 => ⟨S8x1x352x352, .f32⟩
  | 90 => ⟨S8x1x352x352, .f32⟩
  | 91 => ⟨S8x4x352x352, .f32⟩
  | 92 => ⟨S8x3x352x352, .f32⟩
  | 93 => ⟨S8x3x352x352, .f32⟩
  | 94 => ⟨S8x1x352x352, .f32⟩
  | 95 => ⟨S8x1x352x352, .f32⟩
  | 96 => ⟨S8x1x352x352, .f32⟩
  | 97 => ⟨S8x3x352x352, .f32⟩
  | 98 => ⟨S_, .f32⟩
  | 99 => ⟨S8x352x352, .f32⟩
  | 100 => ⟨S8x1x352x352, .f32⟩
  | 101 => ⟨S_, .f32⟩
  | 102 => ⟨S8x1x352x352, .f32⟩
  | 103 => ⟨S8x1x352x352, .f32⟩
  | 104 => ⟨S8x1x352x352, .f32⟩
  | 105 => ⟨S8x1x352x352, .f32⟩
  | 106 => ⟨S8x1x352x352, .f32⟩
  | 107 => ⟨S8x4x352x352, .f32⟩
  | 108 => ⟨S8x3x352x352, .f32⟩
  | 109 => ⟨S8x3x352x352, .f32⟩
  | 110 => ⟨S8x1x352x352, .f32⟩
  | 111 => ⟨S8x1x352x352, .f32⟩
  | 112 => ⟨S8x1x352x352, .f32⟩
  | 113 => ⟨S8x3x352x352, .f32⟩
  | 114 => ⟨S_, .f32⟩
  | 115 => ⟨S8x352x352, .f32⟩
  | 116 => ⟨S8x1x352x352, .f32⟩
  | 117 => ⟨S_, .f32⟩
  | 118 => ⟨S8x1x352x352, .f32⟩
  | 119 => ⟨S8x1x352x352, .f32⟩
  | 120 => ⟨S8x1x352x352, .f32⟩
  | 121 => ⟨S8x1x352x352, .f32⟩
  | 122 => ⟨S8x1x352x352, .f32⟩
  | 123 => ⟨S8x4x352x352, .f32⟩
  | 124 => ⟨S8x3x352x352, .f32⟩
  | 125 => ⟨S8x3x352x352, .f32⟩
  | 126 => ⟨S8x1x352x352, .f32⟩
  | 127 => ⟨S8x1x352x352, .f32⟩
  | _ => ⟨S8x1x352x352, .f32⟩

abbrev hbmTy0_15 (i : Nat) : BufTy := match i % 128 with
  | 0 => ⟨S8x1x352x352, .f32⟩
  | 1 => ⟨S8x3x352x352, .f32⟩
  | 2 => ⟨S_, .f32⟩
  | 3 => ⟨S8x352x352, .f32⟩
  | 4 => ⟨S8x1x352x352, .f32⟩
  | 5 => ⟨S_, .f32⟩
  | 6 => ⟨S8x1x352x352, .f32⟩
  | 7 => ⟨S8x1x352x352, .f32⟩
  | 8 => ⟨S8x1x352x352, .f32⟩
  | 9 => ⟨S8x1x352x352, .f32⟩
  | 10 => ⟨S8x1x352x352, .f32⟩
  | 11 => ⟨S8x4x352x352, .f32⟩
  | 12 => ⟨S8x3x352x352, .f32⟩
  | 13 => ⟨S8x3x352x352, .f32⟩
  | 14 => ⟨S8x1x352x352, .f32⟩
  | 15 => ⟨S8x1x352x352, .f32⟩
  | 16 => ⟨S8x1x352x352, .f32⟩
  | 17 => ⟨S8x3x352x352, .f32⟩
  | 18 => ⟨S_, .f32⟩
  | 19 => ⟨S8x352x352, .f32⟩
  | 20 => ⟨S8x1x352x352, .f32⟩
  | 21 => ⟨S_, .f32⟩
  | 22 => ⟨S8x1x352x352, .f32⟩
  | 23 => ⟨S8x1x352x352, .f32⟩
  | 24 => ⟨S8x1x352x352, .f32⟩
  | 25 => ⟨S8x1x352x352, .f32⟩
  | 26 => ⟨S8x1x352x352, .f32⟩
  | 27 => ⟨S8x4x352x352, .f32⟩
  | 28 => ⟨S8x3x352x352, .f32⟩
  | 29 => ⟨S8x3x352x352, .f32⟩
  | 30 => ⟨S8x1x352x352, .f32⟩
  | 31 => ⟨S8x1x352x352, .f32⟩
  | 32 => ⟨S8x1x352x352, .f32⟩
  | 33 => ⟨S8x3x352x352, .f32⟩
  | 34 => ⟨S_, .f32⟩
  | 35 => ⟨S8x352x352, .f32⟩
  | 36 => ⟨S8x1x352x352, .f32⟩
  | 37 => ⟨S_, .f32⟩
  | 38 => ⟨S8x1x352x352, .f32⟩
  | 39 => ⟨S8x1x352x352, .f32⟩
  | 40 => ⟨S8x1x352x352, .f32⟩
  | 41 => ⟨S8x1x352x352, .f32⟩
  | 42 => ⟨S8x1x352x352, .f32⟩
  | 43 => ⟨S8x1x352x352, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | _ => ⟨S8x1x352x352, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | _ => ⟨S8x1x352x352, .f32⟩

abbrev bufTy : (tb : Table) → Fin (tcTables nBuf tb) → BufTy
  | .hbm, ⟨i, _⟩ => hbmTy i
  | _, _ => ⟨S8x1x352x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_cst_12 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_13 : Ref sig .tc := ⟨.hbm, 98, rfl⟩
abbrev main_v80 : Ref sig .tc := ⟨.hbm, 99, rfl⟩
abbrev main_v81 : Ref sig .tc := ⟨.hbm, 100, rfl⟩
abbrev main_cst_14 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_15 : Ref sig .tc := ⟨.hbm, 114, rfl⟩
abbrev main_v94 : Ref sig .tc := ⟨.hbm, 115, rfl⟩
abbrev main_v95 : Ref sig .tc := ⟨.hbm, 116, rfl⟩
abbrev main_cst_16 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_17 : Ref sig .tc := ⟨.hbm, 130, rfl⟩
abbrev main_v108 : Ref sig .tc := ⟨.hbm, 131, rfl⟩
abbrev main_v109 : Ref sig .tc := ⟨.hbm, 132, rfl⟩
abbrev main_cst_18 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_19 : Ref sig .tc := ⟨.hbm, 146, rfl⟩
abbrev main_v122 : Ref sig .tc := ⟨.hbm, 147, rfl⟩
abbrev main_v123 : Ref sig .tc := ⟨.hbm, 148, rfl⟩
abbrev main_cst_20 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_21 : Ref sig .tc := ⟨.hbm, 162, rfl⟩
abbrev main_v136 : Ref sig .tc := ⟨.hbm, 163, rfl⟩
abbrev main_v137 : Ref sig .tc := ⟨.hbm, 164, rfl⟩
abbrev main_cst_22 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_cst_23 : Ref sig .tc := ⟨.hbm, 178, rfl⟩
abbrev main_v150 : Ref sig .tc := ⟨.hbm, 179, rfl⟩
abbrev main_v151 : Ref sig .tc := ⟨.hbm, 180, rfl⟩
abbrev main_cst_24 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_cst_25 : Ref sig .tc := ⟨.hbm, 194, rfl⟩
abbrev main_v164 : Ref sig .tc := ⟨.hbm, 195, rfl⟩
abbrev main_v165 : Ref sig .tc := ⟨.hbm, 196, rfl⟩
abbrev main_cst_26 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_cst_27 : Ref sig .tc := ⟨.hbm, 210, rfl⟩
abbrev main_v178 : Ref sig .tc := ⟨.hbm, 211, rfl⟩
abbrev main_v179 : Ref sig .tc := ⟨.hbm, 212, rfl⟩
abbrev main_cst_28 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_cst_29 : Ref sig .tc := ⟨.hbm, 226, rfl⟩
abbrev main_v192 : Ref sig .tc := ⟨.hbm, 227, rfl⟩
abbrev main_v193 : Ref sig .tc := ⟨.hbm, 228, rfl⟩
abbrev main_cst_30 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_cst_31 : Ref sig .tc := ⟨.hbm, 242, rfl⟩
abbrev main_v206 : Ref sig .tc := ⟨.hbm, 243, rfl⟩
abbrev main_v207 : Ref sig .tc := ⟨.hbm, 244, rfl⟩
abbrev main_cst_32 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_cst_33 : Ref sig .tc := ⟨.hbm, 258, rfl⟩
abbrev main_v220 : Ref sig .tc := ⟨.hbm, 259, rfl⟩
abbrev main_v221 : Ref sig .tc := ⟨.hbm, 260, rfl⟩
abbrev main_cst_34 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_cst_35 : Ref sig .tc := ⟨.hbm, 274, rfl⟩
abbrev main_v234 : Ref sig .tc := ⟨.hbm, 275, rfl⟩
abbrev main_v235 : Ref sig .tc := ⟨.hbm, 276, rfl⟩
abbrev main_cst_36 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_cst_37 : Ref sig .tc := ⟨.hbm, 290, rfl⟩
abbrev main_v248 : Ref sig .tc := ⟨.hbm, 291, rfl⟩
abbrev main_v249 : Ref sig .tc := ⟨.hbm, 292, rfl⟩
abbrev main_cst_38 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_cst_39 : Ref sig .tc := ⟨.hbm, 306, rfl⟩
abbrev main_v262 : Ref sig .tc := ⟨.hbm, 307, rfl⟩
abbrev main_v263 : Ref sig .tc := ⟨.hbm, 308, rfl⟩
abbrev main_cst_40 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_cst_41 : Ref sig .tc := ⟨.hbm, 322, rfl⟩
abbrev main_v276 : Ref sig .tc := ⟨.hbm, 323, rfl⟩
abbrev main_v277 : Ref sig .tc := ⟨.hbm, 324, rfl⟩
abbrev main_cst_42 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_v282 : Ref sig .tc := ⟨.hbm, 330, rfl⟩
abbrev main_v283 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_cst_43 : Ref sig .tc := ⟨.hbm, 338, rfl⟩
abbrev main_v290 : Ref sig .tc := ⟨.hbm, 339, rfl⟩
abbrev main_v291 : Ref sig .tc := ⟨.hbm, 340, rfl⟩
abbrev main_cst_44 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_cst_45 : Ref sig .tc := ⟨.hbm, 354, rfl⟩
abbrev main_v304 : Ref sig .tc := ⟨.hbm, 355, rfl⟩
abbrev main_v305 : Ref sig .tc := ⟨.hbm, 356, rfl⟩
abbrev main_cst_46 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_cst_47 : Ref sig .tc := ⟨.hbm, 370, rfl⟩
abbrev main_v318 : Ref sig .tc := ⟨.hbm, 371, rfl⟩
abbrev main_v319 : Ref sig .tc := ⟨.hbm, 372, rfl⟩
abbrev main_cst_48 : Ref sig .tc := ⟨.hbm, 373, rfl⟩
abbrev main_v320 : Ref sig .tc := ⟨.hbm, 374, rfl⟩
abbrev main_v321 : Ref sig .tc := ⟨.hbm, 375, rfl⟩
abbrev main_v322 : Ref sig .tc := ⟨.hbm, 376, rfl⟩
abbrev main_v323 : Ref sig .tc := ⟨.hbm, 377, rfl⟩
abbrev main_v324 : Ref sig .tc := ⟨.hbm, 378, rfl⟩
abbrev main_v325 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_v331 : Ref sig .tc := ⟨.hbm, 385, rfl⟩
abbrev main_cst_49 : Ref sig .tc := ⟨.hbm, 386, rfl⟩
abbrev main_v332 : Ref sig .tc := ⟨.hbm, 387, rfl⟩
abbrev main_v333 : Ref sig .tc := ⟨.hbm, 388, rfl⟩
abbrev main_cst_50 : Ref sig .tc := ⟨.hbm, 389, rfl⟩
abbrev main_v334 : Ref sig .tc := ⟨.hbm, 390, rfl⟩
abbrev main_v335 : Ref sig .tc := ⟨.hbm, 391, rfl⟩
abbrev main_v336 : Ref sig .tc := ⟨.hbm, 392, rfl⟩
abbrev main_v337 : Ref sig .tc := ⟨.hbm, 393, rfl⟩
abbrev main_v338 : Ref sig .tc := ⟨.hbm, 394, rfl⟩
abbrev main_v339 : Ref sig .tc := ⟨.hbm, 395, rfl⟩
abbrev main_v340 : Ref sig .tc := ⟨.hbm, 396, rfl⟩
abbrev main_v341 : Ref sig .tc := ⟨.hbm, 397, rfl⟩
abbrev main_v342 : Ref sig .tc := ⟨.hbm, 398, rfl⟩
abbrev main_v343 : Ref sig .tc := ⟨.hbm, 399, rfl⟩
abbrev main_v344 : Ref sig .tc := ⟨.hbm, 400, rfl⟩
abbrev main_v345 : Ref sig .tc := ⟨.hbm, 401, rfl⟩
abbrev main_cst_51 : Ref sig .tc := ⟨.hbm, 402, rfl⟩
abbrev main_v346 : Ref sig .tc := ⟨.hbm, 403, rfl⟩
abbrev main_v347 : Ref sig .tc := ⟨.hbm, 404, rfl⟩
abbrev main_cst_52 : Ref sig .tc := ⟨.hbm, 405, rfl⟩
abbrev main_v348 : Ref sig .tc := ⟨.hbm, 406, rfl⟩
abbrev main_v349 : Ref sig .tc := ⟨.hbm, 407, rfl⟩
abbrev main_v350 : Ref sig .tc := ⟨.hbm, 408, rfl⟩
abbrev main_v351 : Ref sig .tc := ⟨.hbm, 409, rfl⟩
abbrev main_v352 : Ref sig .tc := ⟨.hbm, 410, rfl⟩
abbrev main_v353 : Ref sig .tc := ⟨.hbm, 411, rfl⟩
abbrev main_v354 : Ref sig .tc := ⟨.hbm, 412, rfl⟩
abbrev main_v355 : Ref sig .tc := ⟨.hbm, 413, rfl⟩
abbrev main_v356 : Ref sig .tc := ⟨.hbm, 414, rfl⟩
abbrev main_v357 : Ref sig .tc := ⟨.hbm, 415, rfl⟩
abbrev main_v358 : Ref sig .tc := ⟨.hbm, 416, rfl⟩
abbrev main_v359 : Ref sig .tc := ⟨.hbm, 417, rfl⟩
abbrev main_cst_53 : Ref sig .tc := ⟨.hbm, 418, rfl⟩
abbrev main_v360 : Ref sig .tc := ⟨.hbm, 419, rfl⟩
abbrev main_v361 : Ref sig .tc := ⟨.hbm, 420, rfl⟩
abbrev main_cst_54 : Ref sig .tc := ⟨.hbm, 421, rfl⟩
abbrev main_v362 : Ref sig .tc := ⟨.hbm, 422, rfl⟩
abbrev main_v363 : Ref sig .tc := ⟨.hbm, 423, rfl⟩
abbrev main_v364 : Ref sig .tc := ⟨.hbm, 424, rfl⟩
abbrev main_v365 : Ref sig .tc := ⟨.hbm, 425, rfl⟩
abbrev main_v366 : Ref sig .tc := ⟨.hbm, 426, rfl⟩
abbrev main_v367 : Ref sig .tc := ⟨.hbm, 427, rfl⟩
abbrev main_v368 : Ref sig .tc := ⟨.hbm, 428, rfl⟩
abbrev main_v369 : Ref sig .tc := ⟨.hbm, 429, rfl⟩
abbrev main_v370 : Ref sig .tc := ⟨.hbm, 430, rfl⟩
abbrev main_v371 : Ref sig .tc := ⟨.hbm, 431, rfl⟩
abbrev main_v372 : Ref sig .tc := ⟨.hbm, 432, rfl⟩
abbrev main_v373 : Ref sig .tc := ⟨.hbm, 433, rfl⟩
abbrev main_cst_55 : Ref sig .tc := ⟨.hbm, 434, rfl⟩
abbrev main_v374 : Ref sig .tc := ⟨.hbm, 435, rfl⟩
abbrev main_v375 : Ref sig .tc := ⟨.hbm, 436, rfl⟩
abbrev main_cst_56 : Ref sig .tc := ⟨.hbm, 437, rfl⟩
abbrev main_v376 : Ref sig .tc := ⟨.hbm, 438, rfl⟩
abbrev main_v377 : Ref sig .tc := ⟨.hbm, 439, rfl⟩
abbrev main_v378 : Ref sig .tc := ⟨.hbm, 440, rfl⟩
abbrev main_v379 : Ref sig .tc := ⟨.hbm, 441, rfl⟩
abbrev main_v380 : Ref sig .tc := ⟨.hbm, 442, rfl⟩
abbrev main_v381 : Ref sig .tc := ⟨.hbm, 443, rfl⟩
abbrev main_v382 : Ref sig .tc := ⟨.hbm, 444, rfl⟩
abbrev main_v383 : Ref sig .tc := ⟨.hbm, 445, rfl⟩
abbrev main_v384 : Ref sig .tc := ⟨.hbm, 446, rfl⟩
abbrev main_v385 : Ref sig .tc := ⟨.hbm, 447, rfl⟩
abbrev main_v386 : Ref sig .tc := ⟨.hbm, 448, rfl⟩
abbrev main_v387 : Ref sig .tc := ⟨.hbm, 449, rfl⟩
abbrev main_cst_57 : Ref sig .tc := ⟨.hbm, 450, rfl⟩
abbrev main_v388 : Ref sig .tc := ⟨.hbm, 451, rfl⟩
abbrev main_v389 : Ref sig .tc := ⟨.hbm, 452, rfl⟩
abbrev main_cst_58 : Ref sig .tc := ⟨.hbm, 453, rfl⟩
abbrev main_v390 : Ref sig .tc := ⟨.hbm, 454, rfl⟩
abbrev main_v391 : Ref sig .tc := ⟨.hbm, 455, rfl⟩
abbrev main_v392 : Ref sig .tc := ⟨.hbm, 456, rfl⟩
abbrev main_v393 : Ref sig .tc := ⟨.hbm, 457, rfl⟩
abbrev main_v394 : Ref sig .tc := ⟨.hbm, 458, rfl⟩
abbrev main_v395 : Ref sig .tc := ⟨.hbm, 459, rfl⟩
abbrev main_v396 : Ref sig .tc := ⟨.hbm, 460, rfl⟩
abbrev main_v397 : Ref sig .tc := ⟨.hbm, 461, rfl⟩
abbrev main_v398 : Ref sig .tc := ⟨.hbm, 462, rfl⟩
abbrev main_v399 : Ref sig .tc := ⟨.hbm, 463, rfl⟩
abbrev main_v400 : Ref sig .tc := ⟨.hbm, 464, rfl⟩
abbrev main_v401 : Ref sig .tc := ⟨.hbm, 465, rfl⟩
abbrev main_cst_59 : Ref sig .tc := ⟨.hbm, 466, rfl⟩
abbrev main_v402 : Ref sig .tc := ⟨.hbm, 467, rfl⟩
abbrev main_v403 : Ref sig .tc := ⟨.hbm, 468, rfl⟩
abbrev main_cst_60 : Ref sig .tc := ⟨.hbm, 469, rfl⟩
abbrev main_v404 : Ref sig .tc := ⟨.hbm, 470, rfl⟩
abbrev main_v405 : Ref sig .tc := ⟨.hbm, 471, rfl⟩
abbrev main_v406 : Ref sig .tc := ⟨.hbm, 472, rfl⟩
abbrev main_v407 : Ref sig .tc := ⟨.hbm, 473, rfl⟩
abbrev main_v408 : Ref sig .tc := ⟨.hbm, 474, rfl⟩
abbrev main_v409 : Ref sig .tc := ⟨.hbm, 475, rfl⟩
abbrev main_v410 : Ref sig .tc := ⟨.hbm, 476, rfl⟩
abbrev main_v411 : Ref sig .tc := ⟨.hbm, 477, rfl⟩
abbrev main_v412 : Ref sig .tc := ⟨.hbm, 478, rfl⟩
abbrev main_v413 : Ref sig .tc := ⟨.hbm, 479, rfl⟩
abbrev main_v414 : Ref sig .tc := ⟨.hbm, 480, rfl⟩
abbrev main_v415 : Ref sig .tc := ⟨.hbm, 481, rfl⟩
abbrev main_cst_61 : Ref sig .tc := ⟨.hbm, 482, rfl⟩
abbrev main_v416 : Ref sig .tc := ⟨.hbm, 483, rfl⟩
abbrev main_v417 : Ref sig .tc := ⟨.hbm, 484, rfl⟩
abbrev main_cst_62 : Ref sig .tc := ⟨.hbm, 485, rfl⟩
abbrev main_v418 : Ref sig .tc := ⟨.hbm, 486, rfl⟩
abbrev main_v419 : Ref sig .tc := ⟨.hbm, 487, rfl⟩
abbrev main_v420 : Ref sig .tc := ⟨.hbm, 488, rfl⟩
abbrev main_v421 : Ref sig .tc := ⟨.hbm, 489, rfl⟩
abbrev main_v422 : Ref sig .tc := ⟨.hbm, 490, rfl⟩
abbrev main_v423 : Ref sig .tc := ⟨.hbm, 491, rfl⟩
abbrev main_v424 : Ref sig .tc := ⟨.hbm, 492, rfl⟩
abbrev main_v425 : Ref sig .tc := ⟨.hbm, 493, rfl⟩
abbrev main_v426 : Ref sig .tc := ⟨.hbm, 494, rfl⟩
abbrev main_v427 : Ref sig .tc := ⟨.hbm, 495, rfl⟩
abbrev main_v428 : Ref sig .tc := ⟨.hbm, 496, rfl⟩
abbrev main_v429 : Ref sig .tc := ⟨.hbm, 497, rfl⟩
abbrev main_cst_63 : Ref sig .tc := ⟨.hbm, 498, rfl⟩
abbrev main_v430 : Ref sig .tc := ⟨.hbm, 499, rfl⟩
abbrev main_v431 : Ref sig .tc := ⟨.hbm, 500, rfl⟩
abbrev main_cst_64 : Ref sig .tc := ⟨.hbm, 501, rfl⟩
abbrev main_v432 : Ref sig .tc := ⟨.hbm, 502, rfl⟩
abbrev main_v433 : Ref sig .tc := ⟨.hbm, 503, rfl⟩
abbrev main_v434 : Ref sig .tc := ⟨.hbm, 504, rfl⟩
abbrev main_v435 : Ref sig .tc := ⟨.hbm, 505, rfl⟩
abbrev main_v436 : Ref sig .tc := ⟨.hbm, 506, rfl⟩
abbrev main_v437 : Ref sig .tc := ⟨.hbm, 507, rfl⟩
abbrev main_v438 : Ref sig .tc := ⟨.hbm, 508, rfl⟩
abbrev main_v439 : Ref sig .tc := ⟨.hbm, 509, rfl⟩
abbrev main_v440 : Ref sig .tc := ⟨.hbm, 510, rfl⟩
abbrev main_v441 : Ref sig .tc := ⟨.hbm, 511, rfl⟩
abbrev main_v442 : Ref sig .tc := ⟨.hbm, 512, rfl⟩
abbrev main_v443 : Ref sig .tc := ⟨.hbm, 513, rfl⟩
abbrev main_cst_65 : Ref sig .tc := ⟨.hbm, 514, rfl⟩
abbrev main_v444 : Ref sig .tc := ⟨.hbm, 515, rfl⟩
abbrev main_v445 : Ref sig .tc := ⟨.hbm, 516, rfl⟩
abbrev main_cst_66 : Ref sig .tc := ⟨.hbm, 517, rfl⟩
abbrev main_v446 : Ref sig .tc := ⟨.hbm, 518, rfl⟩
abbrev main_v447 : Ref sig .tc := ⟨.hbm, 519, rfl⟩
abbrev main_v448 : Ref sig .tc := ⟨.hbm, 520, rfl⟩
abbrev main_v449 : Ref sig .tc := ⟨.hbm, 521, rfl⟩
abbrev main_v450 : Ref sig .tc := ⟨.hbm, 522, rfl⟩
abbrev main_v451 : Ref sig .tc := ⟨.hbm, 523, rfl⟩
abbrev main_v452 : Ref sig .tc := ⟨.hbm, 524, rfl⟩
abbrev main_v453 : Ref sig .tc := ⟨.hbm, 525, rfl⟩
abbrev main_v454 : Ref sig .tc := ⟨.hbm, 526, rfl⟩
abbrev main_v455 : Ref sig .tc := ⟨.hbm, 527, rfl⟩
abbrev main_v456 : Ref sig .tc := ⟨.hbm, 528, rfl⟩
abbrev main_v457 : Ref sig .tc := ⟨.hbm, 529, rfl⟩
abbrev main_cst_67 : Ref sig .tc := ⟨.hbm, 530, rfl⟩
abbrev main_v458 : Ref sig .tc := ⟨.hbm, 531, rfl⟩
abbrev main_v459 : Ref sig .tc := ⟨.hbm, 532, rfl⟩
abbrev main_cst_68 : Ref sig .tc := ⟨.hbm, 533, rfl⟩
abbrev main_v460 : Ref sig .tc := ⟨.hbm, 534, rfl⟩
abbrev main_v461 : Ref sig .tc := ⟨.hbm, 535, rfl⟩
abbrev main_v462 : Ref sig .tc := ⟨.hbm, 536, rfl⟩
abbrev main_v463 : Ref sig .tc := ⟨.hbm, 537, rfl⟩
abbrev main_v464 : Ref sig .tc := ⟨.hbm, 538, rfl⟩
abbrev main_v465 : Ref sig .tc := ⟨.hbm, 539, rfl⟩
abbrev main_v466 : Ref sig .tc := ⟨.hbm, 540, rfl⟩
abbrev main_v467 : Ref sig .tc := ⟨.hbm, 541, rfl⟩
abbrev main_v468 : Ref sig .tc := ⟨.hbm, 542, rfl⟩
abbrev main_v469 : Ref sig .tc := ⟨.hbm, 543, rfl⟩
abbrev main_v470 : Ref sig .tc := ⟨.hbm, 544, rfl⟩
abbrev main_v471 : Ref sig .tc := ⟨.hbm, 545, rfl⟩
abbrev main_cst_69 : Ref sig .tc := ⟨.hbm, 546, rfl⟩
abbrev main_v472 : Ref sig .tc := ⟨.hbm, 547, rfl⟩
abbrev main_v473 : Ref sig .tc := ⟨.hbm, 548, rfl⟩
abbrev main_cst_70 : Ref sig .tc := ⟨.hbm, 549, rfl⟩
abbrev main_v474 : Ref sig .tc := ⟨.hbm, 550, rfl⟩
abbrev main_v475 : Ref sig .tc := ⟨.hbm, 551, rfl⟩
abbrev main_v476 : Ref sig .tc := ⟨.hbm, 552, rfl⟩
abbrev main_v477 : Ref sig .tc := ⟨.hbm, 553, rfl⟩
abbrev main_v478 : Ref sig .tc := ⟨.hbm, 554, rfl⟩
abbrev main_v479 : Ref sig .tc := ⟨.hbm, 555, rfl⟩
abbrev main_v480 : Ref sig .tc := ⟨.hbm, 556, rfl⟩
abbrev main_v481 : Ref sig .tc := ⟨.hbm, 557, rfl⟩
abbrev main_v482 : Ref sig .tc := ⟨.hbm, 558, rfl⟩
abbrev main_v483 : Ref sig .tc := ⟨.hbm, 559, rfl⟩
abbrev main_v484 : Ref sig .tc := ⟨.hbm, 560, rfl⟩
abbrev main_v485 : Ref sig .tc := ⟨.hbm, 561, rfl⟩
abbrev main_cst_71 : Ref sig .tc := ⟨.hbm, 562, rfl⟩
abbrev main_v486 : Ref sig .tc := ⟨.hbm, 563, rfl⟩
abbrev main_v487 : Ref sig .tc := ⟨.hbm, 564, rfl⟩
abbrev main_cst_72 : Ref sig .tc := ⟨.hbm, 565, rfl⟩
abbrev main_v488 : Ref sig .tc := ⟨.hbm, 566, rfl⟩
abbrev main_v489 : Ref sig .tc := ⟨.hbm, 567, rfl⟩
abbrev main_v490 : Ref sig .tc := ⟨.hbm, 568, rfl⟩
abbrev main_v491 : Ref sig .tc := ⟨.hbm, 569, rfl⟩
abbrev main_v492 : Ref sig .tc := ⟨.hbm, 570, rfl⟩
abbrev main_v493 : Ref sig .tc := ⟨.hbm, 571, rfl⟩
abbrev main_v494 : Ref sig .tc := ⟨.hbm, 572, rfl⟩
abbrev main_v495 : Ref sig .tc := ⟨.hbm, 573, rfl⟩
abbrev main_v496 : Ref sig .tc := ⟨.hbm, 574, rfl⟩
abbrev main_v497 : Ref sig .tc := ⟨.hbm, 575, rfl⟩
abbrev main_v498 : Ref sig .tc := ⟨.hbm, 576, rfl⟩
abbrev main_v499 : Ref sig .tc := ⟨.hbm, 577, rfl⟩
abbrev main_cst_73 : Ref sig .tc := ⟨.hbm, 578, rfl⟩
abbrev main_v500 : Ref sig .tc := ⟨.hbm, 579, rfl⟩
abbrev main_v501 : Ref sig .tc := ⟨.hbm, 580, rfl⟩
abbrev main_cst_74 : Ref sig .tc := ⟨.hbm, 581, rfl⟩
abbrev main_v502 : Ref sig .tc := ⟨.hbm, 582, rfl⟩
abbrev main_v503 : Ref sig .tc := ⟨.hbm, 583, rfl⟩
abbrev main_v504 : Ref sig .tc := ⟨.hbm, 584, rfl⟩
abbrev main_v505 : Ref sig .tc := ⟨.hbm, 585, rfl⟩
abbrev main_v506 : Ref sig .tc := ⟨.hbm, 586, rfl⟩
abbrev main_v507 : Ref sig .tc := ⟨.hbm, 587, rfl⟩
abbrev main_v508 : Ref sig .tc := ⟨.hbm, 588, rfl⟩
abbrev main_v509 : Ref sig .tc := ⟨.hbm, 589, rfl⟩
abbrev main_v510 : Ref sig .tc := ⟨.hbm, 590, rfl⟩
abbrev main_v511 : Ref sig .tc := ⟨.hbm, 591, rfl⟩
abbrev main_v512 : Ref sig .tc := ⟨.hbm, 592, rfl⟩
abbrev main_v513 : Ref sig .tc := ⟨.hbm, 593, rfl⟩
abbrev main_cst_75 : Ref sig .tc := ⟨.hbm, 594, rfl⟩
abbrev main_v514 : Ref sig .tc := ⟨.hbm, 595, rfl⟩
abbrev main_v515 : Ref sig .tc := ⟨.hbm, 596, rfl⟩
abbrev main_cst_76 : Ref sig .tc := ⟨.hbm, 597, rfl⟩
abbrev main_v516 : Ref sig .tc := ⟨.hbm, 598, rfl⟩
abbrev main_v517 : Ref sig .tc := ⟨.hbm, 599, rfl⟩
abbrev main_v518 : Ref sig .tc := ⟨.hbm, 600, rfl⟩
abbrev main_v519 : Ref sig .tc := ⟨.hbm, 601, rfl⟩
abbrev main_v520 : Ref sig .tc := ⟨.hbm, 602, rfl⟩
abbrev main_v521 : Ref sig .tc := ⟨.hbm, 603, rfl⟩
abbrev main_v522 : Ref sig .tc := ⟨.hbm, 604, rfl⟩
abbrev main_v523 : Ref sig .tc := ⟨.hbm, 605, rfl⟩
abbrev main_v524 : Ref sig .tc := ⟨.hbm, 606, rfl⟩
abbrev main_v525 : Ref sig .tc := ⟨.hbm, 607, rfl⟩
abbrev main_v526 : Ref sig .tc := ⟨.hbm, 608, rfl⟩
abbrev main_v527 : Ref sig .tc := ⟨.hbm, 609, rfl⟩
abbrev main_cst_77 : Ref sig .tc := ⟨.hbm, 610, rfl⟩
abbrev main_v528 : Ref sig .tc := ⟨.hbm, 611, rfl⟩
abbrev main_v529 : Ref sig .tc := ⟨.hbm, 612, rfl⟩
abbrev main_cst_78 : Ref sig .tc := ⟨.hbm, 613, rfl⟩
abbrev main_v530 : Ref sig .tc := ⟨.hbm, 614, rfl⟩
abbrev main_v531 : Ref sig .tc := ⟨.hbm, 615, rfl⟩
abbrev main_v532 : Ref sig .tc := ⟨.hbm, 616, rfl⟩
abbrev main_v533 : Ref sig .tc := ⟨.hbm, 617, rfl⟩
abbrev main_v534 : Ref sig .tc := ⟨.hbm, 618, rfl⟩
abbrev main_v535 : Ref sig .tc := ⟨.hbm, 619, rfl⟩
abbrev main_v536 : Ref sig .tc := ⟨.hbm, 620, rfl⟩
abbrev main_v537 : Ref sig .tc := ⟨.hbm, 621, rfl⟩
abbrev main_v538 : Ref sig .tc := ⟨.hbm, 622, rfl⟩
abbrev main_v539 : Ref sig .tc := ⟨.hbm, 623, rfl⟩
abbrev main_v540 : Ref sig .tc := ⟨.hbm, 624, rfl⟩
abbrev main_v541 : Ref sig .tc := ⟨.hbm, 625, rfl⟩
abbrev main_cst_79 : Ref sig .tc := ⟨.hbm, 626, rfl⟩
abbrev main_v542 : Ref sig .tc := ⟨.hbm, 627, rfl⟩
abbrev main_v543 : Ref sig .tc := ⟨.hbm, 628, rfl⟩
abbrev main_cst_80 : Ref sig .tc := ⟨.hbm, 629, rfl⟩
abbrev main_v544 : Ref sig .tc := ⟨.hbm, 630, rfl⟩
abbrev main_v545 : Ref sig .tc := ⟨.hbm, 631, rfl⟩
abbrev main_v546 : Ref sig .tc := ⟨.hbm, 632, rfl⟩
abbrev main_v547 : Ref sig .tc := ⟨.hbm, 633, rfl⟩
abbrev main_v548 : Ref sig .tc := ⟨.hbm, 634, rfl⟩
abbrev main_v549 : Ref sig .tc := ⟨.hbm, 635, rfl⟩
abbrev main_v550 : Ref sig .tc := ⟨.hbm, 636, rfl⟩
abbrev main_v551 : Ref sig .tc := ⟨.hbm, 637, rfl⟩
abbrev main_v552 : Ref sig .tc := ⟨.hbm, 638, rfl⟩
abbrev main_v553 : Ref sig .tc := ⟨.hbm, 639, rfl⟩
abbrev main_v554 : Ref sig .tc := ⟨.hbm, 640, rfl⟩
abbrev main_v555 : Ref sig .tc := ⟨.hbm, 641, rfl⟩
abbrev main_cst_81 : Ref sig .tc := ⟨.hbm, 642, rfl⟩
abbrev main_v556 : Ref sig .tc := ⟨.hbm, 643, rfl⟩
abbrev main_v557 : Ref sig .tc := ⟨.hbm, 644, rfl⟩
abbrev main_cst_82 : Ref sig .tc := ⟨.hbm, 645, rfl⟩
abbrev main_v558 : Ref sig .tc := ⟨.hbm, 646, rfl⟩
abbrev main_v559 : Ref sig .tc := ⟨.hbm, 647, rfl⟩
abbrev main_v560 : Ref sig .tc := ⟨.hbm, 648, rfl⟩
abbrev main_v561 : Ref sig .tc := ⟨.hbm, 649, rfl⟩
abbrev main_v562 : Ref sig .tc := ⟨.hbm, 650, rfl⟩
abbrev main_v563 : Ref sig .tc := ⟨.hbm, 651, rfl⟩
abbrev main_v564 : Ref sig .tc := ⟨.hbm, 652, rfl⟩
abbrev main_v565 : Ref sig .tc := ⟨.hbm, 653, rfl⟩
abbrev main_v566 : Ref sig .tc := ⟨.hbm, 654, rfl⟩
abbrev main_v567 : Ref sig .tc := ⟨.hbm, 655, rfl⟩
abbrev main_v568 : Ref sig .tc := ⟨.hbm, 656, rfl⟩
abbrev main_v569 : Ref sig .tc := ⟨.hbm, 657, rfl⟩
abbrev main_cst_83 : Ref sig .tc := ⟨.hbm, 658, rfl⟩
abbrev main_v570 : Ref sig .tc := ⟨.hbm, 659, rfl⟩
abbrev main_v571 : Ref sig .tc := ⟨.hbm, 660, rfl⟩
abbrev main_cst_84 : Ref sig .tc := ⟨.hbm, 661, rfl⟩
abbrev main_v572 : Ref sig .tc := ⟨.hbm, 662, rfl⟩
abbrev main_v573 : Ref sig .tc := ⟨.hbm, 663, rfl⟩
abbrev main_v574 : Ref sig .tc := ⟨.hbm, 664, rfl⟩
abbrev main_v575 : Ref sig .tc := ⟨.hbm, 665, rfl⟩
abbrev main_v576 : Ref sig .tc := ⟨.hbm, 666, rfl⟩
abbrev main_v577 : Ref sig .tc := ⟨.hbm, 667, rfl⟩
abbrev main_v578 : Ref sig .tc := ⟨.hbm, 668, rfl⟩
abbrev main_v579 : Ref sig .tc := ⟨.hbm, 669, rfl⟩
abbrev main_v580 : Ref sig .tc := ⟨.hbm, 670, rfl⟩
abbrev main_v581 : Ref sig .tc := ⟨.hbm, 671, rfl⟩
abbrev main_v582 : Ref sig .tc := ⟨.hbm, 672, rfl⟩
abbrev main_v583 : Ref sig .tc := ⟨.hbm, 673, rfl⟩
abbrev main_cst_85 : Ref sig .tc := ⟨.hbm, 674, rfl⟩
abbrev main_v584 : Ref sig .tc := ⟨.hbm, 675, rfl⟩
abbrev main_v585 : Ref sig .tc := ⟨.hbm, 676, rfl⟩
abbrev main_cst_86 : Ref sig .tc := ⟨.hbm, 677, rfl⟩
abbrev main_v586 : Ref sig .tc := ⟨.hbm, 678, rfl⟩
abbrev main_v587 : Ref sig .tc := ⟨.hbm, 679, rfl⟩
abbrev main_v588 : Ref sig .tc := ⟨.hbm, 680, rfl⟩
abbrev main_v589 : Ref sig .tc := ⟨.hbm, 681, rfl⟩
abbrev main_v590 : Ref sig .tc := ⟨.hbm, 682, rfl⟩
abbrev main_v591 : Ref sig .tc := ⟨.hbm, 683, rfl⟩
abbrev main_v592 : Ref sig .tc := ⟨.hbm, 684, rfl⟩
abbrev main_v593 : Ref sig .tc := ⟨.hbm, 685, rfl⟩
abbrev main_v594 : Ref sig .tc := ⟨.hbm, 686, rfl⟩
abbrev main_v595 : Ref sig .tc := ⟨.hbm, 687, rfl⟩
abbrev main_v596 : Ref sig .tc := ⟨.hbm, 688, rfl⟩
abbrev main_v597 : Ref sig .tc := ⟨.hbm, 689, rfl⟩
abbrev main_cst_87 : Ref sig .tc := ⟨.hbm, 690, rfl⟩
abbrev main_v598 : Ref sig .tc := ⟨.hbm, 691, rfl⟩
abbrev main_v599 : Ref sig .tc := ⟨.hbm, 692, rfl⟩
abbrev main_cst_88 : Ref sig .tc := ⟨.hbm, 693, rfl⟩
abbrev main_v600 : Ref sig .tc := ⟨.hbm, 694, rfl⟩
abbrev main_v601 : Ref sig .tc := ⟨.hbm, 695, rfl⟩
abbrev main_v602 : Ref sig .tc := ⟨.hbm, 696, rfl⟩
abbrev main_v603 : Ref sig .tc := ⟨.hbm, 697, rfl⟩
abbrev main_v604 : Ref sig .tc := ⟨.hbm, 698, rfl⟩
abbrev main_v605 : Ref sig .tc := ⟨.hbm, 699, rfl⟩
abbrev main_v606 : Ref sig .tc := ⟨.hbm, 700, rfl⟩
abbrev main_v607 : Ref sig .tc := ⟨.hbm, 701, rfl⟩
abbrev main_v608 : Ref sig .tc := ⟨.hbm, 702, rfl⟩
abbrev main_v609 : Ref sig .tc := ⟨.hbm, 703, rfl⟩
abbrev main_v610 : Ref sig .tc := ⟨.hbm, 704, rfl⟩
abbrev main_v611 : Ref sig .tc := ⟨.hbm, 705, rfl⟩
abbrev main_cst_89 : Ref sig .tc := ⟨.hbm, 706, rfl⟩
abbrev main_v612 : Ref sig .tc := ⟨.hbm, 707, rfl⟩
abbrev main_v613 : Ref sig .tc := ⟨.hbm, 708, rfl⟩
abbrev main_cst_90 : Ref sig .tc := ⟨.hbm, 709, rfl⟩
abbrev main_v614 : Ref sig .tc := ⟨.hbm, 710, rfl⟩
abbrev main_v615 : Ref sig .tc := ⟨.hbm, 711, rfl⟩
abbrev main_v616 : Ref sig .tc := ⟨.hbm, 712, rfl⟩
abbrev main_v617 : Ref sig .tc := ⟨.hbm, 713, rfl⟩
abbrev main_v618 : Ref sig .tc := ⟨.hbm, 714, rfl⟩
abbrev main_v619 : Ref sig .tc := ⟨.hbm, 715, rfl⟩
abbrev main_v620 : Ref sig .tc := ⟨.hbm, 716, rfl⟩
abbrev main_v621 : Ref sig .tc := ⟨.hbm, 717, rfl⟩
abbrev main_v622 : Ref sig .tc := ⟨.hbm, 718, rfl⟩
abbrev main_v623 : Ref sig .tc := ⟨.hbm, 719, rfl⟩
abbrev main_v624 : Ref sig .tc := ⟨.hbm, 720, rfl⟩
abbrev main_v625 : Ref sig .tc := ⟨.hbm, 721, rfl⟩
abbrev main_cst_91 : Ref sig .tc := ⟨.hbm, 722, rfl⟩
abbrev main_v626 : Ref sig .tc := ⟨.hbm, 723, rfl⟩
abbrev main_v627 : Ref sig .tc := ⟨.hbm, 724, rfl⟩
abbrev main_cst_92 : Ref sig .tc := ⟨.hbm, 725, rfl⟩
abbrev main_v628 : Ref sig .tc := ⟨.hbm, 726, rfl⟩
abbrev main_v629 : Ref sig .tc := ⟨.hbm, 727, rfl⟩
abbrev main_v630 : Ref sig .tc := ⟨.hbm, 728, rfl⟩
abbrev main_v631 : Ref sig .tc := ⟨.hbm, 729, rfl⟩
abbrev main_v632 : Ref sig .tc := ⟨.hbm, 730, rfl⟩
abbrev main_v633 : Ref sig .tc := ⟨.hbm, 731, rfl⟩
abbrev main_v634 : Ref sig .tc := ⟨.hbm, 732, rfl⟩
abbrev main_v635 : Ref sig .tc := ⟨.hbm, 733, rfl⟩
abbrev main_v636 : Ref sig .tc := ⟨.hbm, 734, rfl⟩
abbrev main_v637 : Ref sig .tc := ⟨.hbm, 735, rfl⟩
abbrev main_v638 : Ref sig .tc := ⟨.hbm, 736, rfl⟩
abbrev main_v639 : Ref sig .tc := ⟨.hbm, 737, rfl⟩
abbrev main_cst_93 : Ref sig .tc := ⟨.hbm, 738, rfl⟩
abbrev main_v640 : Ref sig .tc := ⟨.hbm, 739, rfl⟩
abbrev main_v641 : Ref sig .tc := ⟨.hbm, 740, rfl⟩
abbrev main_cst_94 : Ref sig .tc := ⟨.hbm, 741, rfl⟩
abbrev main_v642 : Ref sig .tc := ⟨.hbm, 742, rfl⟩
abbrev main_v643 : Ref sig .tc := ⟨.hbm, 743, rfl⟩
abbrev main_v644 : Ref sig .tc := ⟨.hbm, 744, rfl⟩
abbrev main_v645 : Ref sig .tc := ⟨.hbm, 745, rfl⟩
abbrev main_v646 : Ref sig .tc := ⟨.hbm, 746, rfl⟩
abbrev main_v647 : Ref sig .tc := ⟨.hbm, 747, rfl⟩
abbrev main_v648 : Ref sig .tc := ⟨.hbm, 748, rfl⟩
abbrev main_v649 : Ref sig .tc := ⟨.hbm, 749, rfl⟩
abbrev main_v650 : Ref sig .tc := ⟨.hbm, 750, rfl⟩
abbrev main_v651 : Ref sig .tc := ⟨.hbm, 751, rfl⟩
abbrev main_v652 : Ref sig .tc := ⟨.hbm, 752, rfl⟩
abbrev main_v653 : Ref sig .tc := ⟨.hbm, 753, rfl⟩
abbrev main_cst_95 : Ref sig .tc := ⟨.hbm, 754, rfl⟩
abbrev main_v654 : Ref sig .tc := ⟨.hbm, 755, rfl⟩
abbrev main_v655 : Ref sig .tc := ⟨.hbm, 756, rfl⟩
abbrev main_cst_96 : Ref sig .tc := ⟨.hbm, 757, rfl⟩
abbrev main_v656 : Ref sig .tc := ⟨.hbm, 758, rfl⟩
abbrev main_v657 : Ref sig .tc := ⟨.hbm, 759, rfl⟩
abbrev main_v658 : Ref sig .tc := ⟨.hbm, 760, rfl⟩
abbrev main_v659 : Ref sig .tc := ⟨.hbm, 761, rfl⟩
abbrev main_v660 : Ref sig .tc := ⟨.hbm, 762, rfl⟩
abbrev main_v661 : Ref sig .tc := ⟨.hbm, 763, rfl⟩
abbrev main_v662 : Ref sig .tc := ⟨.hbm, 764, rfl⟩
abbrev main_v663 : Ref sig .tc := ⟨.hbm, 765, rfl⟩
abbrev main_v664 : Ref sig .tc := ⟨.hbm, 766, rfl⟩
abbrev main_v665 : Ref sig .tc := ⟨.hbm, 767, rfl⟩
abbrev main_v666 : Ref sig .tc := ⟨.hbm, 768, rfl⟩
abbrev main_v667 : Ref sig .tc := ⟨.hbm, 769, rfl⟩
abbrev main_cst_97 : Ref sig .tc := ⟨.hbm, 770, rfl⟩
abbrev main_v668 : Ref sig .tc := ⟨.hbm, 771, rfl⟩
abbrev main_v669 : Ref sig .tc := ⟨.hbm, 772, rfl⟩
abbrev main_cst_98 : Ref sig .tc := ⟨.hbm, 773, rfl⟩
abbrev main_v670 : Ref sig .tc := ⟨.hbm, 774, rfl⟩
abbrev main_v671 : Ref sig .tc := ⟨.hbm, 775, rfl⟩
abbrev main_v672 : Ref sig .tc := ⟨.hbm, 776, rfl⟩
abbrev main_v673 : Ref sig .tc := ⟨.hbm, 777, rfl⟩
abbrev main_v674 : Ref sig .tc := ⟨.hbm, 778, rfl⟩
abbrev main_v675 : Ref sig .tc := ⟨.hbm, 779, rfl⟩
abbrev main_v676 : Ref sig .tc := ⟨.hbm, 780, rfl⟩
abbrev main_v677 : Ref sig .tc := ⟨.hbm, 781, rfl⟩
abbrev main_v678 : Ref sig .tc := ⟨.hbm, 782, rfl⟩
abbrev main_v679 : Ref sig .tc := ⟨.hbm, 783, rfl⟩
abbrev main_v680 : Ref sig .tc := ⟨.hbm, 784, rfl⟩
abbrev main_v681 : Ref sig .tc := ⟨.hbm, 785, rfl⟩
abbrev main_cst_99 : Ref sig .tc := ⟨.hbm, 786, rfl⟩
abbrev main_v682 : Ref sig .tc := ⟨.hbm, 787, rfl⟩
abbrev main_v683 : Ref sig .tc := ⟨.hbm, 788, rfl⟩
abbrev main_cst_100 : Ref sig .tc := ⟨.hbm, 789, rfl⟩
abbrev main_v684 : Ref sig .tc := ⟨.hbm, 790, rfl⟩
abbrev main_v685 : Ref sig .tc := ⟨.hbm, 791, rfl⟩
abbrev main_v686 : Ref sig .tc := ⟨.hbm, 792, rfl⟩
abbrev main_v687 : Ref sig .tc := ⟨.hbm, 793, rfl⟩
abbrev main_v688 : Ref sig .tc := ⟨.hbm, 794, rfl⟩
abbrev main_v689 : Ref sig .tc := ⟨.hbm, 795, rfl⟩
abbrev main_v690 : Ref sig .tc := ⟨.hbm, 796, rfl⟩
abbrev main_v691 : Ref sig .tc := ⟨.hbm, 797, rfl⟩
abbrev main_v692 : Ref sig .tc := ⟨.hbm, 798, rfl⟩
abbrev main_v693 : Ref sig .tc := ⟨.hbm, 799, rfl⟩
abbrev main_v694 : Ref sig .tc := ⟨.hbm, 800, rfl⟩
abbrev main_v695 : Ref sig .tc := ⟨.hbm, 801, rfl⟩
abbrev main_cst_101 : Ref sig .tc := ⟨.hbm, 802, rfl⟩
abbrev main_v696 : Ref sig .tc := ⟨.hbm, 803, rfl⟩
abbrev main_v697 : Ref sig .tc := ⟨.hbm, 804, rfl⟩
abbrev main_cst_102 : Ref sig .tc := ⟨.hbm, 805, rfl⟩
abbrev main_v698 : Ref sig .tc := ⟨.hbm, 806, rfl⟩
abbrev main_v699 : Ref sig .tc := ⟨.hbm, 807, rfl⟩
abbrev main_v700 : Ref sig .tc := ⟨.hbm, 808, rfl⟩
abbrev main_v701 : Ref sig .tc := ⟨.hbm, 809, rfl⟩
abbrev main_v702 : Ref sig .tc := ⟨.hbm, 810, rfl⟩
abbrev main_v703 : Ref sig .tc := ⟨.hbm, 811, rfl⟩
abbrev main_v704 : Ref sig .tc := ⟨.hbm, 812, rfl⟩
abbrev main_v705 : Ref sig .tc := ⟨.hbm, 813, rfl⟩
abbrev main_v706 : Ref sig .tc := ⟨.hbm, 814, rfl⟩
abbrev main_v707 : Ref sig .tc := ⟨.hbm, 815, rfl⟩
abbrev main_v708 : Ref sig .tc := ⟨.hbm, 816, rfl⟩
abbrev main_v709 : Ref sig .tc := ⟨.hbm, 817, rfl⟩
abbrev main_cst_103 : Ref sig .tc := ⟨.hbm, 818, rfl⟩
abbrev main_v710 : Ref sig .tc := ⟨.hbm, 819, rfl⟩
abbrev main_v711 : Ref sig .tc := ⟨.hbm, 820, rfl⟩
abbrev main_cst_104 : Ref sig .tc := ⟨.hbm, 821, rfl⟩
abbrev main_v712 : Ref sig .tc := ⟨.hbm, 822, rfl⟩
abbrev main_v713 : Ref sig .tc := ⟨.hbm, 823, rfl⟩
abbrev main_v714 : Ref sig .tc := ⟨.hbm, 824, rfl⟩
abbrev main_v715 : Ref sig .tc := ⟨.hbm, 825, rfl⟩
abbrev main_v716 : Ref sig .tc := ⟨.hbm, 826, rfl⟩
abbrev main_v717 : Ref sig .tc := ⟨.hbm, 827, rfl⟩
abbrev main_v718 : Ref sig .tc := ⟨.hbm, 828, rfl⟩
abbrev main_v719 : Ref sig .tc := ⟨.hbm, 829, rfl⟩
abbrev main_v720 : Ref sig .tc := ⟨.hbm, 830, rfl⟩
abbrev main_v721 : Ref sig .tc := ⟨.hbm, 831, rfl⟩
abbrev main_v722 : Ref sig .tc := ⟨.hbm, 832, rfl⟩
abbrev main_v723 : Ref sig .tc := ⟨.hbm, 833, rfl⟩
abbrev main_cst_105 : Ref sig .tc := ⟨.hbm, 834, rfl⟩
abbrev main_v724 : Ref sig .tc := ⟨.hbm, 835, rfl⟩
abbrev main_v725 : Ref sig .tc := ⟨.hbm, 836, rfl⟩
abbrev main_cst_106 : Ref sig .tc := ⟨.hbm, 837, rfl⟩
abbrev main_v726 : Ref sig .tc := ⟨.hbm, 838, rfl⟩
abbrev main_v727 : Ref sig .tc := ⟨.hbm, 839, rfl⟩
abbrev main_v728 : Ref sig .tc := ⟨.hbm, 840, rfl⟩
abbrev main_v729 : Ref sig .tc := ⟨.hbm, 841, rfl⟩
abbrev main_v730 : Ref sig .tc := ⟨.hbm, 842, rfl⟩
abbrev main_v731 : Ref sig .tc := ⟨.hbm, 843, rfl⟩
abbrev main_v732 : Ref sig .tc := ⟨.hbm, 844, rfl⟩
abbrev main_v733 : Ref sig .tc := ⟨.hbm, 845, rfl⟩
abbrev main_v734 : Ref sig .tc := ⟨.hbm, 846, rfl⟩
abbrev main_v735 : Ref sig .tc := ⟨.hbm, 847, rfl⟩
abbrev main_v736 : Ref sig .tc := ⟨.hbm, 848, rfl⟩
abbrev main_v737 : Ref sig .tc := ⟨.hbm, 849, rfl⟩
abbrev main_cst_107 : Ref sig .tc := ⟨.hbm, 850, rfl⟩
abbrev main_v738 : Ref sig .tc := ⟨.hbm, 851, rfl⟩
abbrev main_v739 : Ref sig .tc := ⟨.hbm, 852, rfl⟩
abbrev main_cst_108 : Ref sig .tc := ⟨.hbm, 853, rfl⟩
abbrev main_v740 : Ref sig .tc := ⟨.hbm, 854, rfl⟩
abbrev main_v741 : Ref sig .tc := ⟨.hbm, 855, rfl⟩
abbrev main_v742 : Ref sig .tc := ⟨.hbm, 856, rfl⟩
abbrev main_v743 : Ref sig .tc := ⟨.hbm, 857, rfl⟩
abbrev main_v744 : Ref sig .tc := ⟨.hbm, 858, rfl⟩
abbrev main_v745 : Ref sig .tc := ⟨.hbm, 859, rfl⟩
abbrev main_v746 : Ref sig .tc := ⟨.hbm, 860, rfl⟩
abbrev main_v747 : Ref sig .tc := ⟨.hbm, 861, rfl⟩
abbrev main_v748 : Ref sig .tc := ⟨.hbm, 862, rfl⟩
abbrev main_v749 : Ref sig .tc := ⟨.hbm, 863, rfl⟩
abbrev main_v750 : Ref sig .tc := ⟨.hbm, 864, rfl⟩
abbrev main_v751 : Ref sig .tc := ⟨.hbm, 865, rfl⟩
abbrev main_cst_109 : Ref sig .tc := ⟨.hbm, 866, rfl⟩
abbrev main_v752 : Ref sig .tc := ⟨.hbm, 867, rfl⟩
abbrev main_v753 : Ref sig .tc := ⟨.hbm, 868, rfl⟩
abbrev main_cst_110 : Ref sig .tc := ⟨.hbm, 869, rfl⟩
abbrev main_v754 : Ref sig .tc := ⟨.hbm, 870, rfl⟩
abbrev main_v755 : Ref sig .tc := ⟨.hbm, 871, rfl⟩
abbrev main_v756 : Ref sig .tc := ⟨.hbm, 872, rfl⟩
abbrev main_v757 : Ref sig .tc := ⟨.hbm, 873, rfl⟩
abbrev main_v758 : Ref sig .tc := ⟨.hbm, 874, rfl⟩
abbrev main_v759 : Ref sig .tc := ⟨.hbm, 875, rfl⟩
abbrev main_v760 : Ref sig .tc := ⟨.hbm, 876, rfl⟩
abbrev main_v761 : Ref sig .tc := ⟨.hbm, 877, rfl⟩
abbrev main_v762 : Ref sig .tc := ⟨.hbm, 878, rfl⟩
abbrev main_v763 : Ref sig .tc := ⟨.hbm, 879, rfl⟩
abbrev main_v764 : Ref sig .tc := ⟨.hbm, 880, rfl⟩
abbrev main_v765 : Ref sig .tc := ⟨.hbm, 881, rfl⟩
abbrev main_cst_111 : Ref sig .tc := ⟨.hbm, 882, rfl⟩
abbrev main_v766 : Ref sig .tc := ⟨.hbm, 883, rfl⟩
abbrev main_v767 : Ref sig .tc := ⟨.hbm, 884, rfl⟩
abbrev main_cst_112 : Ref sig .tc := ⟨.hbm, 885, rfl⟩
abbrev main_v768 : Ref sig .tc := ⟨.hbm, 886, rfl⟩
abbrev main_v769 : Ref sig .tc := ⟨.hbm, 887, rfl⟩
abbrev main_v770 : Ref sig .tc := ⟨.hbm, 888, rfl⟩
abbrev main_v771 : Ref sig .tc := ⟨.hbm, 889, rfl⟩
abbrev main_v772 : Ref sig .tc := ⟨.hbm, 890, rfl⟩
abbrev main_v773 : Ref sig .tc := ⟨.hbm, 891, rfl⟩
abbrev main_v774 : Ref sig .tc := ⟨.hbm, 892, rfl⟩
abbrev main_v775 : Ref sig .tc := ⟨.hbm, 893, rfl⟩
abbrev main_v776 : Ref sig .tc := ⟨.hbm, 894, rfl⟩
abbrev main_v777 : Ref sig .tc := ⟨.hbm, 895, rfl⟩
abbrev main_v778 : Ref sig .tc := ⟨.hbm, 896, rfl⟩
abbrev main_v779 : Ref sig .tc := ⟨.hbm, 897, rfl⟩
abbrev main_cst_113 : Ref sig .tc := ⟨.hbm, 898, rfl⟩
abbrev main_v780 : Ref sig .tc := ⟨.hbm, 899, rfl⟩
abbrev main_v781 : Ref sig .tc := ⟨.hbm, 900, rfl⟩
abbrev main_cst_114 : Ref sig .tc := ⟨.hbm, 901, rfl⟩
abbrev main_v782 : Ref sig .tc := ⟨.hbm, 902, rfl⟩
abbrev main_v783 : Ref sig .tc := ⟨.hbm, 903, rfl⟩
abbrev main_v784 : Ref sig .tc := ⟨.hbm, 904, rfl⟩
abbrev main_v785 : Ref sig .tc := ⟨.hbm, 905, rfl⟩
abbrev main_v786 : Ref sig .tc := ⟨.hbm, 906, rfl⟩
abbrev main_v787 : Ref sig .tc := ⟨.hbm, 907, rfl⟩
abbrev main_v788 : Ref sig .tc := ⟨.hbm, 908, rfl⟩
abbrev main_v789 : Ref sig .tc := ⟨.hbm, 909, rfl⟩
abbrev main_v790 : Ref sig .tc := ⟨.hbm, 910, rfl⟩
abbrev main_v791 : Ref sig .tc := ⟨.hbm, 911, rfl⟩
abbrev main_v792 : Ref sig .tc := ⟨.hbm, 912, rfl⟩
abbrev main_v793 : Ref sig .tc := ⟨.hbm, 913, rfl⟩
abbrev main_cst_115 : Ref sig .tc := ⟨.hbm, 914, rfl⟩
abbrev main_v794 : Ref sig .tc := ⟨.hbm, 915, rfl⟩
abbrev main_v795 : Ref sig .tc := ⟨.hbm, 916, rfl⟩
abbrev main_cst_116 : Ref sig .tc := ⟨.hbm, 917, rfl⟩
abbrev main_v796 : Ref sig .tc := ⟨.hbm, 918, rfl⟩
abbrev main_v797 : Ref sig .tc := ⟨.hbm, 919, rfl⟩
abbrev main_v798 : Ref sig .tc := ⟨.hbm, 920, rfl⟩
abbrev main_v799 : Ref sig .tc := ⟨.hbm, 921, rfl⟩
abbrev main_v800 : Ref sig .tc := ⟨.hbm, 922, rfl⟩
abbrev main_v801 : Ref sig .tc := ⟨.hbm, 923, rfl⟩
abbrev main_v802 : Ref sig .tc := ⟨.hbm, 924, rfl⟩
abbrev main_v803 : Ref sig .tc := ⟨.hbm, 925, rfl⟩
abbrev main_v804 : Ref sig .tc := ⟨.hbm, 926, rfl⟩
abbrev main_v805 : Ref sig .tc := ⟨.hbm, 927, rfl⟩
abbrev main_v806 : Ref sig .tc := ⟨.hbm, 928, rfl⟩
abbrev main_v807 : Ref sig .tc := ⟨.hbm, 929, rfl⟩
abbrev main_cst_117 : Ref sig .tc := ⟨.hbm, 930, rfl⟩
abbrev main_v808 : Ref sig .tc := ⟨.hbm, 931, rfl⟩
abbrev main_v809 : Ref sig .tc := ⟨.hbm, 932, rfl⟩
abbrev main_cst_118 : Ref sig .tc := ⟨.hbm, 933, rfl⟩
abbrev main_v810 : Ref sig .tc := ⟨.hbm, 934, rfl⟩
abbrev main_v811 : Ref sig .tc := ⟨.hbm, 935, rfl⟩
abbrev main_v812 : Ref sig .tc := ⟨.hbm, 936, rfl⟩
abbrev main_v813 : Ref sig .tc := ⟨.hbm, 937, rfl⟩
abbrev main_v814 : Ref sig .tc := ⟨.hbm, 938, rfl⟩
abbrev main_v815 : Ref sig .tc := ⟨.hbm, 939, rfl⟩
abbrev main_v816 : Ref sig .tc := ⟨.hbm, 940, rfl⟩
abbrev main_v817 : Ref sig .tc := ⟨.hbm, 941, rfl⟩
abbrev main_v818 : Ref sig .tc := ⟨.hbm, 942, rfl⟩
abbrev main_v819 : Ref sig .tc := ⟨.hbm, 943, rfl⟩
abbrev main_v820 : Ref sig .tc := ⟨.hbm, 944, rfl⟩
abbrev main_v821 : Ref sig .tc := ⟨.hbm, 945, rfl⟩
abbrev main_cst_119 : Ref sig .tc := ⟨.hbm, 946, rfl⟩
abbrev main_v822 : Ref sig .tc := ⟨.hbm, 947, rfl⟩
abbrev main_v823 : Ref sig .tc := ⟨.hbm, 948, rfl⟩
abbrev main_cst_120 : Ref sig .tc := ⟨.hbm, 949, rfl⟩
abbrev main_v824 : Ref sig .tc := ⟨.hbm, 950, rfl⟩
abbrev main_v825 : Ref sig .tc := ⟨.hbm, 951, rfl⟩
abbrev main_v826 : Ref sig .tc := ⟨.hbm, 952, rfl⟩
abbrev main_v827 : Ref sig .tc := ⟨.hbm, 953, rfl⟩
abbrev main_v828 : Ref sig .tc := ⟨.hbm, 954, rfl⟩
abbrev main_v829 : Ref sig .tc := ⟨.hbm, 955, rfl⟩
abbrev main_v830 : Ref sig .tc := ⟨.hbm, 956, rfl⟩
abbrev main_v831 : Ref sig .tc := ⟨.hbm, 957, rfl⟩
abbrev main_v832 : Ref sig .tc := ⟨.hbm, 958, rfl⟩
abbrev main_v833 : Ref sig .tc := ⟨.hbm, 959, rfl⟩
abbrev main_v834 : Ref sig .tc := ⟨.hbm, 960, rfl⟩
abbrev main_v835 : Ref sig .tc := ⟨.hbm, 961, rfl⟩
abbrev main_cst_121 : Ref sig .tc := ⟨.hbm, 962, rfl⟩
abbrev main_v836 : Ref sig .tc := ⟨.hbm, 963, rfl⟩
abbrev main_v837 : Ref sig .tc := ⟨.hbm, 964, rfl⟩
abbrev main_cst_122 : Ref sig .tc := ⟨.hbm, 965, rfl⟩
abbrev main_v838 : Ref sig .tc := ⟨.hbm, 966, rfl⟩
abbrev main_v839 : Ref sig .tc := ⟨.hbm, 967, rfl⟩
abbrev main_v840 : Ref sig .tc := ⟨.hbm, 968, rfl⟩
abbrev main_v841 : Ref sig .tc := ⟨.hbm, 969, rfl⟩
abbrev main_v842 : Ref sig .tc := ⟨.hbm, 970, rfl⟩
abbrev main_v843 : Ref sig .tc := ⟨.hbm, 971, rfl⟩
abbrev main_v844 : Ref sig .tc := ⟨.hbm, 972, rfl⟩
abbrev main_v845 : Ref sig .tc := ⟨.hbm, 973, rfl⟩
abbrev main_v846 : Ref sig .tc := ⟨.hbm, 974, rfl⟩
abbrev main_v847 : Ref sig .tc := ⟨.hbm, 975, rfl⟩
abbrev main_v848 : Ref sig .tc := ⟨.hbm, 976, rfl⟩
abbrev main_v849 : Ref sig .tc := ⟨.hbm, 977, rfl⟩
abbrev main_cst_123 : Ref sig .tc := ⟨.hbm, 978, rfl⟩
abbrev main_v850 : Ref sig .tc := ⟨.hbm, 979, rfl⟩
abbrev main_v851 : Ref sig .tc := ⟨.hbm, 980, rfl⟩
abbrev main_cst_124 : Ref sig .tc := ⟨.hbm, 981, rfl⟩
abbrev main_v852 : Ref sig .tc := ⟨.hbm, 982, rfl⟩
abbrev main_v853 : Ref sig .tc := ⟨.hbm, 983, rfl⟩
abbrev main_v854 : Ref sig .tc := ⟨.hbm, 984, rfl⟩
abbrev main_v855 : Ref sig .tc := ⟨.hbm, 985, rfl⟩
abbrev main_v856 : Ref sig .tc := ⟨.hbm, 986, rfl⟩
abbrev main_v857 : Ref sig .tc := ⟨.hbm, 987, rfl⟩
abbrev main_v858 : Ref sig .tc := ⟨.hbm, 988, rfl⟩
abbrev main_v859 : Ref sig .tc := ⟨.hbm, 989, rfl⟩
abbrev main_v860 : Ref sig .tc := ⟨.hbm, 990, rfl⟩
abbrev main_v861 : Ref sig .tc := ⟨.hbm, 991, rfl⟩
abbrev main_v862 : Ref sig .tc := ⟨.hbm, 992, rfl⟩
abbrev main_v863 : Ref sig .tc := ⟨.hbm, 993, rfl⟩
abbrev main_cst_125 : Ref sig .tc := ⟨.hbm, 994, rfl⟩
abbrev main_v864 : Ref sig .tc := ⟨.hbm, 995, rfl⟩
abbrev main_v865 : Ref sig .tc := ⟨.hbm, 996, rfl⟩
abbrev main_cst_126 : Ref sig .tc := ⟨.hbm, 997, rfl⟩
abbrev main_v866 : Ref sig .tc := ⟨.hbm, 998, rfl⟩
abbrev main_v867 : Ref sig .tc := ⟨.hbm, 999, rfl⟩
abbrev main_v868 : Ref sig .tc := ⟨.hbm, 1000, rfl⟩
abbrev main_v869 : Ref sig .tc := ⟨.hbm, 1001, rfl⟩
abbrev main_v870 : Ref sig .tc := ⟨.hbm, 1002, rfl⟩
abbrev main_v871 : Ref sig .tc := ⟨.hbm, 1003, rfl⟩
abbrev main_v872 : Ref sig .tc := ⟨.hbm, 1004, rfl⟩
abbrev main_v873 : Ref sig .tc := ⟨.hbm, 1005, rfl⟩
abbrev main_v874 : Ref sig .tc := ⟨.hbm, 1006, rfl⟩
abbrev main_v875 : Ref sig .tc := ⟨.hbm, 1007, rfl⟩
abbrev main_v876 : Ref sig .tc := ⟨.hbm, 1008, rfl⟩
abbrev main_v877 : Ref sig .tc := ⟨.hbm, 1009, rfl⟩
abbrev main_cst_127 : Ref sig .tc := ⟨.hbm, 1010, rfl⟩
abbrev main_v878 : Ref sig .tc := ⟨.hbm, 1011, rfl⟩
abbrev main_v879 : Ref sig .tc := ⟨.hbm, 1012, rfl⟩
abbrev main_cst_128 : Ref sig .tc := ⟨.hbm, 1013, rfl⟩
abbrev main_v880 : Ref sig .tc := ⟨.hbm, 1014, rfl⟩
abbrev main_v881 : Ref sig .tc := ⟨.hbm, 1015, rfl⟩
abbrev main_v882 : Ref sig .tc := ⟨.hbm, 1016, rfl⟩
abbrev main_v883 : Ref sig .tc := ⟨.hbm, 1017, rfl⟩
abbrev main_v884 : Ref sig .tc := ⟨.hbm, 1018, rfl⟩
abbrev main_v885 : Ref sig .tc := ⟨.hbm, 1019, rfl⟩
abbrev main_v886 : Ref sig .tc := ⟨.hbm, 1020, rfl⟩
abbrev main_v887 : Ref sig .tc := ⟨.hbm, 1021, rfl⟩
abbrev main_v888 : Ref sig .tc := ⟨.hbm, 1022, rfl⟩
abbrev main_v889 : Ref sig .tc := ⟨.hbm, 1023, rfl⟩
abbrev main_v890 : Ref sig .tc := ⟨.hbm, 1024, rfl⟩
abbrev main_v891 : Ref sig .tc := ⟨.hbm, 1025, rfl⟩
abbrev main_cst_129 : Ref sig .tc := ⟨.hbm, 1026, rfl⟩
abbrev main_v892 : Ref sig .tc := ⟨.hbm, 1027, rfl⟩
abbrev main_v893 : Ref sig .tc := ⟨.hbm, 1028, rfl⟩
abbrev main_cst_130 : Ref sig .tc := ⟨.hbm, 1029, rfl⟩
abbrev main_v894 : Ref sig .tc := ⟨.hbm, 1030, rfl⟩
abbrev main_v895 : Ref sig .tc := ⟨.hbm, 1031, rfl⟩
abbrev main_v896 : Ref sig .tc := ⟨.hbm, 1032, rfl⟩
abbrev main_v897 : Ref sig .tc := ⟨.hbm, 1033, rfl⟩
abbrev main_v898 : Ref sig .tc := ⟨.hbm, 1034, rfl⟩
abbrev main_v899 : Ref sig .tc := ⟨.hbm, 1035, rfl⟩
abbrev main_v900 : Ref sig .tc := ⟨.hbm, 1036, rfl⟩
abbrev main_v901 : Ref sig .tc := ⟨.hbm, 1037, rfl⟩
abbrev main_v902 : Ref sig .tc := ⟨.hbm, 1038, rfl⟩
abbrev main_v903 : Ref sig .tc := ⟨.hbm, 1039, rfl⟩
abbrev main_v904 : Ref sig .tc := ⟨.hbm, 1040, rfl⟩
abbrev main_v905 : Ref sig .tc := ⟨.hbm, 1041, rfl⟩
abbrev main_cst_131 : Ref sig .tc := ⟨.hbm, 1042, rfl⟩
abbrev main_v906 : Ref sig .tc := ⟨.hbm, 1043, rfl⟩
abbrev main_v907 : Ref sig .tc := ⟨.hbm, 1044, rfl⟩
abbrev main_cst_132 : Ref sig .tc := ⟨.hbm, 1045, rfl⟩
abbrev main_v908 : Ref sig .tc := ⟨.hbm, 1046, rfl⟩
abbrev main_v909 : Ref sig .tc := ⟨.hbm, 1047, rfl⟩
abbrev main_v910 : Ref sig .tc := ⟨.hbm, 1048, rfl⟩
abbrev main_v911 : Ref sig .tc := ⟨.hbm, 1049, rfl⟩
abbrev main_v912 : Ref sig .tc := ⟨.hbm, 1050, rfl⟩
abbrev main_v913 : Ref sig .tc := ⟨.hbm, 1051, rfl⟩
abbrev main_v914 : Ref sig .tc := ⟨.hbm, 1052, rfl⟩
abbrev main_v915 : Ref sig .tc := ⟨.hbm, 1053, rfl⟩
abbrev main_v916 : Ref sig .tc := ⟨.hbm, 1054, rfl⟩
abbrev main_v917 : Ref sig .tc := ⟨.hbm, 1055, rfl⟩
abbrev main_v918 : Ref sig .tc := ⟨.hbm, 1056, rfl⟩
abbrev main_v919 : Ref sig .tc := ⟨.hbm, 1057, rfl⟩
abbrev main_cst_133 : Ref sig .tc := ⟨.hbm, 1058, rfl⟩
abbrev main_v920 : Ref sig .tc := ⟨.hbm, 1059, rfl⟩
abbrev main_v921 : Ref sig .tc := ⟨.hbm, 1060, rfl⟩
abbrev main_cst_134 : Ref sig .tc := ⟨.hbm, 1061, rfl⟩
abbrev main_v922 : Ref sig .tc := ⟨.hbm, 1062, rfl⟩
abbrev main_v923 : Ref sig .tc := ⟨.hbm, 1063, rfl⟩
abbrev main_v924 : Ref sig .tc := ⟨.hbm, 1064, rfl⟩
abbrev main_v925 : Ref sig .tc := ⟨.hbm, 1065, rfl⟩
abbrev main_v926 : Ref sig .tc := ⟨.hbm, 1066, rfl⟩
abbrev main_v927 : Ref sig .tc := ⟨.hbm, 1067, rfl⟩
abbrev main_v928 : Ref sig .tc := ⟨.hbm, 1068, rfl⟩
abbrev main_v929 : Ref sig .tc := ⟨.hbm, 1069, rfl⟩
abbrev main_v930 : Ref sig .tc := ⟨.hbm, 1070, rfl⟩
abbrev main_v931 : Ref sig .tc := ⟨.hbm, 1071, rfl⟩
abbrev main_v932 : Ref sig .tc := ⟨.hbm, 1072, rfl⟩
abbrev main_v933 : Ref sig .tc := ⟨.hbm, 1073, rfl⟩
abbrev main_cst_135 : Ref sig .tc := ⟨.hbm, 1074, rfl⟩
abbrev main_v934 : Ref sig .tc := ⟨.hbm, 1075, rfl⟩
abbrev main_v935 : Ref sig .tc := ⟨.hbm, 1076, rfl⟩
abbrev main_cst_136 : Ref sig .tc := ⟨.hbm, 1077, rfl⟩
abbrev main_v936 : Ref sig .tc := ⟨.hbm, 1078, rfl⟩
abbrev main_v937 : Ref sig .tc := ⟨.hbm, 1079, rfl⟩
abbrev main_v938 : Ref sig .tc := ⟨.hbm, 1080, rfl⟩
abbrev main_v939 : Ref sig .tc := ⟨.hbm, 1081, rfl⟩
abbrev main_v940 : Ref sig .tc := ⟨.hbm, 1082, rfl⟩
abbrev main_v941 : Ref sig .tc := ⟨.hbm, 1083, rfl⟩
abbrev main_v942 : Ref sig .tc := ⟨.hbm, 1084, rfl⟩
abbrev main_v943 : Ref sig .tc := ⟨.hbm, 1085, rfl⟩
abbrev main_v944 : Ref sig .tc := ⟨.hbm, 1086, rfl⟩
abbrev main_v945 : Ref sig .tc := ⟨.hbm, 1087, rfl⟩
abbrev main_v946 : Ref sig .tc := ⟨.hbm, 1088, rfl⟩
abbrev main_v947 : Ref sig .tc := ⟨.hbm, 1089, rfl⟩
abbrev main_cst_137 : Ref sig .tc := ⟨.hbm, 1090, rfl⟩
abbrev main_v948 : Ref sig .tc := ⟨.hbm, 1091, rfl⟩
abbrev main_v949 : Ref sig .tc := ⟨.hbm, 1092, rfl⟩
abbrev main_cst_138 : Ref sig .tc := ⟨.hbm, 1093, rfl⟩
abbrev main_v950 : Ref sig .tc := ⟨.hbm, 1094, rfl⟩
abbrev main_v951 : Ref sig .tc := ⟨.hbm, 1095, rfl⟩
abbrev main_v952 : Ref sig .tc := ⟨.hbm, 1096, rfl⟩
abbrev main_v953 : Ref sig .tc := ⟨.hbm, 1097, rfl⟩
abbrev main_v954 : Ref sig .tc := ⟨.hbm, 1098, rfl⟩
abbrev main_v955 : Ref sig .tc := ⟨.hbm, 1099, rfl⟩
abbrev main_v956 : Ref sig .tc := ⟨.hbm, 1100, rfl⟩
abbrev main_v957 : Ref sig .tc := ⟨.hbm, 1101, rfl⟩
abbrev main_v958 : Ref sig .tc := ⟨.hbm, 1102, rfl⟩
abbrev main_v959 : Ref sig .tc := ⟨.hbm, 1103, rfl⟩
abbrev main_v960 : Ref sig .tc := ⟨.hbm, 1104, rfl⟩
abbrev main_v961 : Ref sig .tc := ⟨.hbm, 1105, rfl⟩
abbrev main_cst_139 : Ref sig .tc := ⟨.hbm, 1106, rfl⟩
abbrev main_v962 : Ref sig .tc := ⟨.hbm, 1107, rfl⟩
abbrev main_v963 : Ref sig .tc := ⟨.hbm, 1108, rfl⟩
abbrev main_cst_140 : Ref sig .tc := ⟨.hbm, 1109, rfl⟩
abbrev main_v964 : Ref sig .tc := ⟨.hbm, 1110, rfl⟩
abbrev main_v965 : Ref sig .tc := ⟨.hbm, 1111, rfl⟩
abbrev main_v966 : Ref sig .tc := ⟨.hbm, 1112, rfl⟩
abbrev main_v967 : Ref sig .tc := ⟨.hbm, 1113, rfl⟩
abbrev main_v968 : Ref sig .tc := ⟨.hbm, 1114, rfl⟩
abbrev main_v969 : Ref sig .tc := ⟨.hbm, 1115, rfl⟩
abbrev main_v970 : Ref sig .tc := ⟨.hbm, 1116, rfl⟩
abbrev main_v971 : Ref sig .tc := ⟨.hbm, 1117, rfl⟩
abbrev main_v972 : Ref sig .tc := ⟨.hbm, 1118, rfl⟩
abbrev main_v973 : Ref sig .tc := ⟨.hbm, 1119, rfl⟩
abbrev main_v974 : Ref sig .tc := ⟨.hbm, 1120, rfl⟩
abbrev main_v975 : Ref sig .tc := ⟨.hbm, 1121, rfl⟩
abbrev main_cst_141 : Ref sig .tc := ⟨.hbm, 1122, rfl⟩
abbrev main_v976 : Ref sig .tc := ⟨.hbm, 1123, rfl⟩
abbrev main_v977 : Ref sig .tc := ⟨.hbm, 1124, rfl⟩
abbrev main_cst_142 : Ref sig .tc := ⟨.hbm, 1125, rfl⟩
abbrev main_v978 : Ref sig .tc := ⟨.hbm, 1126, rfl⟩
abbrev main_v979 : Ref sig .tc := ⟨.hbm, 1127, rfl⟩
abbrev main_v980 : Ref sig .tc := ⟨.hbm, 1128, rfl⟩
abbrev main_v981 : Ref sig .tc := ⟨.hbm, 1129, rfl⟩
abbrev main_v982 : Ref sig .tc := ⟨.hbm, 1130, rfl⟩
abbrev main_v983 : Ref sig .tc := ⟨.hbm, 1131, rfl⟩
abbrev main_v984 : Ref sig .tc := ⟨.hbm, 1132, rfl⟩
abbrev main_v985 : Ref sig .tc := ⟨.hbm, 1133, rfl⟩
abbrev main_v986 : Ref sig .tc := ⟨.hbm, 1134, rfl⟩
abbrev main_v987 : Ref sig .tc := ⟨.hbm, 1135, rfl⟩
abbrev main_v988 : Ref sig .tc := ⟨.hbm, 1136, rfl⟩
abbrev main_v989 : Ref sig .tc := ⟨.hbm, 1137, rfl⟩
abbrev main_cst_143 : Ref sig .tc := ⟨.hbm, 1138, rfl⟩
abbrev main_v990 : Ref sig .tc := ⟨.hbm, 1139, rfl⟩
abbrev main_v991 : Ref sig .tc := ⟨.hbm, 1140, rfl⟩
abbrev main_cst_144 : Ref sig .tc := ⟨.hbm, 1141, rfl⟩
abbrev main_v992 : Ref sig .tc := ⟨.hbm, 1142, rfl⟩
abbrev main_v993 : Ref sig .tc := ⟨.hbm, 1143, rfl⟩
abbrev main_v994 : Ref sig .tc := ⟨.hbm, 1144, rfl⟩
abbrev main_v995 : Ref sig .tc := ⟨.hbm, 1145, rfl⟩
abbrev main_v996 : Ref sig .tc := ⟨.hbm, 1146, rfl⟩
abbrev main_v997 : Ref sig .tc := ⟨.hbm, 1147, rfl⟩
abbrev main_v998 : Ref sig .tc := ⟨.hbm, 1148, rfl⟩
abbrev main_v999 : Ref sig .tc := ⟨.hbm, 1149, rfl⟩
abbrev main_v1000 : Ref sig .tc := ⟨.hbm, 1150, rfl⟩
abbrev main_v1001 : Ref sig .tc := ⟨.hbm, 1151, rfl⟩
abbrev main_v1002 : Ref sig .tc := ⟨.hbm, 1152, rfl⟩
abbrev main_v1003 : Ref sig .tc := ⟨.hbm, 1153, rfl⟩
abbrev main_cst_145 : Ref sig .tc := ⟨.hbm, 1154, rfl⟩
abbrev main_v1004 : Ref sig .tc := ⟨.hbm, 1155, rfl⟩
abbrev main_v1005 : Ref sig .tc := ⟨.hbm, 1156, rfl⟩
abbrev main_cst_146 : Ref sig .tc := ⟨.hbm, 1157, rfl⟩
abbrev main_v1006 : Ref sig .tc := ⟨.hbm, 1158, rfl⟩
abbrev main_v1007 : Ref sig .tc := ⟨.hbm, 1159, rfl⟩
abbrev main_v1008 : Ref sig .tc := ⟨.hbm, 1160, rfl⟩
abbrev main_v1009 : Ref sig .tc := ⟨.hbm, 1161, rfl⟩
abbrev main_v1010 : Ref sig .tc := ⟨.hbm, 1162, rfl⟩
abbrev main_v1011 : Ref sig .tc := ⟨.hbm, 1163, rfl⟩
abbrev main_v1012 : Ref sig .tc := ⟨.hbm, 1164, rfl⟩
abbrev main_v1013 : Ref sig .tc := ⟨.hbm, 1165, rfl⟩
abbrev main_v1014 : Ref sig .tc := ⟨.hbm, 1166, rfl⟩
abbrev main_v1015 : Ref sig .tc := ⟨.hbm, 1167, rfl⟩
abbrev main_v1016 : Ref sig .tc := ⟨.hbm, 1168, rfl⟩
abbrev main_v1017 : Ref sig .tc := ⟨.hbm, 1169, rfl⟩
abbrev main_cst_147 : Ref sig .tc := ⟨.hbm, 1170, rfl⟩
abbrev main_v1018 : Ref sig .tc := ⟨.hbm, 1171, rfl⟩
abbrev main_v1019 : Ref sig .tc := ⟨.hbm, 1172, rfl⟩
abbrev main_cst_148 : Ref sig .tc := ⟨.hbm, 1173, rfl⟩
abbrev main_v1020 : Ref sig .tc := ⟨.hbm, 1174, rfl⟩
abbrev main_v1021 : Ref sig .tc := ⟨.hbm, 1175, rfl⟩
abbrev main_v1022 : Ref sig .tc := ⟨.hbm, 1176, rfl⟩
abbrev main_v1023 : Ref sig .tc := ⟨.hbm, 1177, rfl⟩
abbrev main_v1024 : Ref sig .tc := ⟨.hbm, 1178, rfl⟩
abbrev main_v1025 : Ref sig .tc := ⟨.hbm, 1179, rfl⟩
abbrev main_v1026 : Ref sig .tc := ⟨.hbm, 1180, rfl⟩
abbrev main_v1027 : Ref sig .tc := ⟨.hbm, 1181, rfl⟩
abbrev main_v1028 : Ref sig .tc := ⟨.hbm, 1182, rfl⟩
abbrev main_v1029 : Ref sig .tc := ⟨.hbm, 1183, rfl⟩
abbrev main_v1030 : Ref sig .tc := ⟨.hbm, 1184, rfl⟩
abbrev main_v1031 : Ref sig .tc := ⟨.hbm, 1185, rfl⟩
abbrev main_cst_149 : Ref sig .tc := ⟨.hbm, 1186, rfl⟩
abbrev main_v1032 : Ref sig .tc := ⟨.hbm, 1187, rfl⟩
abbrev main_v1033 : Ref sig .tc := ⟨.hbm, 1188, rfl⟩
abbrev main_cst_150 : Ref sig .tc := ⟨.hbm, 1189, rfl⟩
abbrev main_v1034 : Ref sig .tc := ⟨.hbm, 1190, rfl⟩
abbrev main_v1035 : Ref sig .tc := ⟨.hbm, 1191, rfl⟩
abbrev main_v1036 : Ref sig .tc := ⟨.hbm, 1192, rfl⟩
abbrev main_v1037 : Ref sig .tc := ⟨.hbm, 1193, rfl⟩
abbrev main_v1038 : Ref sig .tc := ⟨.hbm, 1194, rfl⟩
abbrev main_v1039 : Ref sig .tc := ⟨.hbm, 1195, rfl⟩
abbrev main_v1040 : Ref sig .tc := ⟨.hbm, 1196, rfl⟩
abbrev main_v1041 : Ref sig .tc := ⟨.hbm, 1197, rfl⟩
abbrev main_v1042 : Ref sig .tc := ⟨.hbm, 1198, rfl⟩
abbrev main_v1043 : Ref sig .tc := ⟨.hbm, 1199, rfl⟩
abbrev main_v1044 : Ref sig .tc := ⟨.hbm, 1200, rfl⟩
abbrev main_v1045 : Ref sig .tc := ⟨.hbm, 1201, rfl⟩
abbrev main_cst_151 : Ref sig .tc := ⟨.hbm, 1202, rfl⟩
abbrev main_v1046 : Ref sig .tc := ⟨.hbm, 1203, rfl⟩
abbrev main_v1047 : Ref sig .tc := ⟨.hbm, 1204, rfl⟩
abbrev main_cst_152 : Ref sig .tc := ⟨.hbm, 1205, rfl⟩
abbrev main_v1048 : Ref sig .tc := ⟨.hbm, 1206, rfl⟩
abbrev main_v1049 : Ref sig .tc := ⟨.hbm, 1207, rfl⟩
abbrev main_v1050 : Ref sig .tc := ⟨.hbm, 1208, rfl⟩
abbrev main_v1051 : Ref sig .tc := ⟨.hbm, 1209, rfl⟩
abbrev main_v1052 : Ref sig .tc := ⟨.hbm, 1210, rfl⟩
abbrev main_v1053 : Ref sig .tc := ⟨.hbm, 1211, rfl⟩
abbrev main_v1054 : Ref sig .tc := ⟨.hbm, 1212, rfl⟩
abbrev main_v1055 : Ref sig .tc := ⟨.hbm, 1213, rfl⟩
abbrev main_v1056 : Ref sig .tc := ⟨.hbm, 1214, rfl⟩
abbrev main_v1057 : Ref sig .tc := ⟨.hbm, 1215, rfl⟩
abbrev main_v1058 : Ref sig .tc := ⟨.hbm, 1216, rfl⟩
abbrev main_v1059 : Ref sig .tc := ⟨.hbm, 1217, rfl⟩
abbrev main_cst_153 : Ref sig .tc := ⟨.hbm, 1218, rfl⟩
abbrev main_v1060 : Ref sig .tc := ⟨.hbm, 1219, rfl⟩
abbrev main_v1061 : Ref sig .tc := ⟨.hbm, 1220, rfl⟩
abbrev main_cst_154 : Ref sig .tc := ⟨.hbm, 1221, rfl⟩
abbrev main_v1062 : Ref sig .tc := ⟨.hbm, 1222, rfl⟩
abbrev main_v1063 : Ref sig .tc := ⟨.hbm, 1223, rfl⟩
abbrev main_v1064 : Ref sig .tc := ⟨.hbm, 1224, rfl⟩
abbrev main_v1065 : Ref sig .tc := ⟨.hbm, 1225, rfl⟩
abbrev main_v1066 : Ref sig .tc := ⟨.hbm, 1226, rfl⟩
abbrev main_v1067 : Ref sig .tc := ⟨.hbm, 1227, rfl⟩
abbrev main_v1068 : Ref sig .tc := ⟨.hbm, 1228, rfl⟩
abbrev main_v1069 : Ref sig .tc := ⟨.hbm, 1229, rfl⟩
abbrev main_v1070 : Ref sig .tc := ⟨.hbm, 1230, rfl⟩
abbrev main_v1071 : Ref sig .tc := ⟨.hbm, 1231, rfl⟩
abbrev main_v1072 : Ref sig .tc := ⟨.hbm, 1232, rfl⟩
abbrev main_v1073 : Ref sig .tc := ⟨.hbm, 1233, rfl⟩
abbrev main_cst_155 : Ref sig .tc := ⟨.hbm, 1234, rfl⟩
abbrev main_v1074 : Ref sig .tc := ⟨.hbm, 1235, rfl⟩
abbrev main_v1075 : Ref sig .tc := ⟨.hbm, 1236, rfl⟩
abbrev main_cst_156 : Ref sig .tc := ⟨.hbm, 1237, rfl⟩
abbrev main_v1076 : Ref sig .tc := ⟨.hbm, 1238, rfl⟩
abbrev main_v1077 : Ref sig .tc := ⟨.hbm, 1239, rfl⟩
abbrev main_v1078 : Ref sig .tc := ⟨.hbm, 1240, rfl⟩
abbrev main_v1079 : Ref sig .tc := ⟨.hbm, 1241, rfl⟩
abbrev main_v1080 : Ref sig .tc := ⟨.hbm, 1242, rfl⟩
abbrev main_v1081 : Ref sig .tc := ⟨.hbm, 1243, rfl⟩
abbrev main_v1082 : Ref sig .tc := ⟨.hbm, 1244, rfl⟩
abbrev main_v1083 : Ref sig .tc := ⟨.hbm, 1245, rfl⟩
abbrev main_v1084 : Ref sig .tc := ⟨.hbm, 1246, rfl⟩
abbrev main_v1085 : Ref sig .tc := ⟨.hbm, 1247, rfl⟩
abbrev main_v1086 : Ref sig .tc := ⟨.hbm, 1248, rfl⟩
abbrev main_v1087 : Ref sig .tc := ⟨.hbm, 1249, rfl⟩
abbrev main_cst_157 : Ref sig .tc := ⟨.hbm, 1250, rfl⟩
abbrev main_v1088 : Ref sig .tc := ⟨.hbm, 1251, rfl⟩
abbrev main_v1089 : Ref sig .tc := ⟨.hbm, 1252, rfl⟩
abbrev main_cst_158 : Ref sig .tc := ⟨.hbm, 1253, rfl⟩
abbrev main_v1090 : Ref sig .tc := ⟨.hbm, 1254, rfl⟩
abbrev main_v1091 : Ref sig .tc := ⟨.hbm, 1255, rfl⟩
abbrev main_v1092 : Ref sig .tc := ⟨.hbm, 1256, rfl⟩
abbrev main_v1093 : Ref sig .tc := ⟨.hbm, 1257, rfl⟩
abbrev main_v1094 : Ref sig .tc := ⟨.hbm, 1258, rfl⟩
abbrev main_v1095 : Ref sig .tc := ⟨.hbm, 1259, rfl⟩
abbrev main_v1096 : Ref sig .tc := ⟨.hbm, 1260, rfl⟩
abbrev main_v1097 : Ref sig .tc := ⟨.hbm, 1261, rfl⟩
abbrev main_v1098 : Ref sig .tc := ⟨.hbm, 1262, rfl⟩
abbrev main_v1099 : Ref sig .tc := ⟨.hbm, 1263, rfl⟩
abbrev main_v1100 : Ref sig .tc := ⟨.hbm, 1264, rfl⟩
abbrev main_v1101 : Ref sig .tc := ⟨.hbm, 1265, rfl⟩
abbrev main_cst_159 : Ref sig .tc := ⟨.hbm, 1266, rfl⟩
abbrev main_v1102 : Ref sig .tc := ⟨.hbm, 1267, rfl⟩
abbrev main_v1103 : Ref sig .tc := ⟨.hbm, 1268, rfl⟩
abbrev main_cst_160 : Ref sig .tc := ⟨.hbm, 1269, rfl⟩
abbrev main_v1104 : Ref sig .tc := ⟨.hbm, 1270, rfl⟩
abbrev main_v1105 : Ref sig .tc := ⟨.hbm, 1271, rfl⟩
abbrev main_v1106 : Ref sig .tc := ⟨.hbm, 1272, rfl⟩
abbrev main_v1107 : Ref sig .tc := ⟨.hbm, 1273, rfl⟩
abbrev main_v1108 : Ref sig .tc := ⟨.hbm, 1274, rfl⟩
abbrev main_v1109 : Ref sig .tc := ⟨.hbm, 1275, rfl⟩
abbrev main_v1110 : Ref sig .tc := ⟨.hbm, 1276, rfl⟩
abbrev main_v1111 : Ref sig .tc := ⟨.hbm, 1277, rfl⟩
abbrev main_v1112 : Ref sig .tc := ⟨.hbm, 1278, rfl⟩
abbrev main_v1113 : Ref sig .tc := ⟨.hbm, 1279, rfl⟩
abbrev main_v1114 : Ref sig .tc := ⟨.hbm, 1280, rfl⟩
abbrev main_v1115 : Ref sig .tc := ⟨.hbm, 1281, rfl⟩
abbrev main_cst_161 : Ref sig .tc := ⟨.hbm, 1282, rfl⟩
abbrev main_v1116 : Ref sig .tc := ⟨.hbm, 1283, rfl⟩
abbrev main_v1117 : Ref sig .tc := ⟨.hbm, 1284, rfl⟩
abbrev main_cst_162 : Ref sig .tc := ⟨.hbm, 1285, rfl⟩
abbrev main_v1118 : Ref sig .tc := ⟨.hbm, 1286, rfl⟩
abbrev main_v1119 : Ref sig .tc := ⟨.hbm, 1287, rfl⟩
abbrev main_v1120 : Ref sig .tc := ⟨.hbm, 1288, rfl⟩
abbrev main_v1121 : Ref sig .tc := ⟨.hbm, 1289, rfl⟩
abbrev main_v1122 : Ref sig .tc := ⟨.hbm, 1290, rfl⟩
abbrev main_v1123 : Ref sig .tc := ⟨.hbm, 1291, rfl⟩
abbrev main_v1124 : Ref sig .tc := ⟨.hbm, 1292, rfl⟩
abbrev main_v1125 : Ref sig .tc := ⟨.hbm, 1293, rfl⟩
abbrev main_v1126 : Ref sig .tc := ⟨.hbm, 1294, rfl⟩
abbrev main_v1127 : Ref sig .tc := ⟨.hbm, 1295, rfl⟩
abbrev main_v1128 : Ref sig .tc := ⟨.hbm, 1296, rfl⟩
abbrev main_v1129 : Ref sig .tc := ⟨.hbm, 1297, rfl⟩
abbrev main_cst_163 : Ref sig .tc := ⟨.hbm, 1298, rfl⟩
abbrev main_v1130 : Ref sig .tc := ⟨.hbm, 1299, rfl⟩
abbrev main_v1131 : Ref sig .tc := ⟨.hbm, 1300, rfl⟩
abbrev main_cst_164 : Ref sig .tc := ⟨.hbm, 1301, rfl⟩
abbrev main_v1132 : Ref sig .tc := ⟨.hbm, 1302, rfl⟩
abbrev main_v1133 : Ref sig .tc := ⟨.hbm, 1303, rfl⟩
abbrev main_v1134 : Ref sig .tc := ⟨.hbm, 1304, rfl⟩
abbrev main_v1135 : Ref sig .tc := ⟨.hbm, 1305, rfl⟩
abbrev main_v1136 : Ref sig .tc := ⟨.hbm, 1306, rfl⟩
abbrev main_v1137 : Ref sig .tc := ⟨.hbm, 1307, rfl⟩
abbrev main_v1138 : Ref sig .tc := ⟨.hbm, 1308, rfl⟩
abbrev main_v1139 : Ref sig .tc := ⟨.hbm, 1309, rfl⟩
abbrev main_v1140 : Ref sig .tc := ⟨.hbm, 1310, rfl⟩
abbrev main_v1141 : Ref sig .tc := ⟨.hbm, 1311, rfl⟩
abbrev main_v1142 : Ref sig .tc := ⟨.hbm, 1312, rfl⟩
abbrev main_v1143 : Ref sig .tc := ⟨.hbm, 1313, rfl⟩
abbrev main_cst_165 : Ref sig .tc := ⟨.hbm, 1314, rfl⟩
abbrev main_v1144 : Ref sig .tc := ⟨.hbm, 1315, rfl⟩
abbrev main_v1145 : Ref sig .tc := ⟨.hbm, 1316, rfl⟩
abbrev main_cst_166 : Ref sig .tc := ⟨.hbm, 1317, rfl⟩
abbrev main_v1146 : Ref sig .tc := ⟨.hbm, 1318, rfl⟩
abbrev main_v1147 : Ref sig .tc := ⟨.hbm, 1319, rfl⟩
abbrev main_v1148 : Ref sig .tc := ⟨.hbm, 1320, rfl⟩
abbrev main_v1149 : Ref sig .tc := ⟨.hbm, 1321, rfl⟩
abbrev main_v1150 : Ref sig .tc := ⟨.hbm, 1322, rfl⟩
abbrev main_v1151 : Ref sig .tc := ⟨.hbm, 1323, rfl⟩
abbrev main_v1152 : Ref sig .tc := ⟨.hbm, 1324, rfl⟩
abbrev main_v1153 : Ref sig .tc := ⟨.hbm, 1325, rfl⟩
abbrev main_v1154 : Ref sig .tc := ⟨.hbm, 1326, rfl⟩
abbrev main_v1155 : Ref sig .tc := ⟨.hbm, 1327, rfl⟩
abbrev main_v1156 : Ref sig .tc := ⟨.hbm, 1328, rfl⟩
abbrev main_v1157 : Ref sig .tc := ⟨.hbm, 1329, rfl⟩
abbrev main_cst_167 : Ref sig .tc := ⟨.hbm, 1330, rfl⟩
abbrev main_v1158 : Ref sig .tc := ⟨.hbm, 1331, rfl⟩
abbrev main_v1159 : Ref sig .tc := ⟨.hbm, 1332, rfl⟩
abbrev main_cst_168 : Ref sig .tc := ⟨.hbm, 1333, rfl⟩
abbrev main_v1160 : Ref sig .tc := ⟨.hbm, 1334, rfl⟩
abbrev main_v1161 : Ref sig .tc := ⟨.hbm, 1335, rfl⟩
abbrev main_v1162 : Ref sig .tc := ⟨.hbm, 1336, rfl⟩
abbrev main_v1163 : Ref sig .tc := ⟨.hbm, 1337, rfl⟩
abbrev main_v1164 : Ref sig .tc := ⟨.hbm, 1338, rfl⟩
abbrev main_v1165 : Ref sig .tc := ⟨.hbm, 1339, rfl⟩
abbrev main_v1166 : Ref sig .tc := ⟨.hbm, 1340, rfl⟩
abbrev main_v1167 : Ref sig .tc := ⟨.hbm, 1341, rfl⟩
abbrev main_v1168 : Ref sig .tc := ⟨.hbm, 1342, rfl⟩
abbrev main_v1169 : Ref sig .tc := ⟨.hbm, 1343, rfl⟩
abbrev main_v1170 : Ref sig .tc := ⟨.hbm, 1344, rfl⟩
abbrev main_v1171 : Ref sig .tc := ⟨.hbm, 1345, rfl⟩
abbrev main_cst_169 : Ref sig .tc := ⟨.hbm, 1346, rfl⟩
abbrev main_v1172 : Ref sig .tc := ⟨.hbm, 1347, rfl⟩
abbrev main_v1173 : Ref sig .tc := ⟨.hbm, 1348, rfl⟩
abbrev main_cst_170 : Ref sig .tc := ⟨.hbm, 1349, rfl⟩
abbrev main_v1174 : Ref sig .tc := ⟨.hbm, 1350, rfl⟩
abbrev main_v1175 : Ref sig .tc := ⟨.hbm, 1351, rfl⟩
abbrev main_v1176 : Ref sig .tc := ⟨.hbm, 1352, rfl⟩
abbrev main_v1177 : Ref sig .tc := ⟨.hbm, 1353, rfl⟩
abbrev main_v1178 : Ref sig .tc := ⟨.hbm, 1354, rfl⟩
abbrev main_v1179 : Ref sig .tc := ⟨.hbm, 1355, rfl⟩
abbrev main_v1180 : Ref sig .tc := ⟨.hbm, 1356, rfl⟩
abbrev main_v1181 : Ref sig .tc := ⟨.hbm, 1357, rfl⟩
abbrev main_v1182 : Ref sig .tc := ⟨.hbm, 1358, rfl⟩
abbrev main_v1183 : Ref sig .tc := ⟨.hbm, 1359, rfl⟩
abbrev main_v1184 : Ref sig .tc := ⟨.hbm, 1360, rfl⟩
abbrev main_v1185 : Ref sig .tc := ⟨.hbm, 1361, rfl⟩
abbrev main_cst_171 : Ref sig .tc := ⟨.hbm, 1362, rfl⟩
abbrev main_v1186 : Ref sig .tc := ⟨.hbm, 1363, rfl⟩
abbrev main_v1187 : Ref sig .tc := ⟨.hbm, 1364, rfl⟩
abbrev main_cst_172 : Ref sig .tc := ⟨.hbm, 1365, rfl⟩
abbrev main_v1188 : Ref sig .tc := ⟨.hbm, 1366, rfl⟩
abbrev main_v1189 : Ref sig .tc := ⟨.hbm, 1367, rfl⟩
abbrev main_v1190 : Ref sig .tc := ⟨.hbm, 1368, rfl⟩
abbrev main_v1191 : Ref sig .tc := ⟨.hbm, 1369, rfl⟩
abbrev main_v1192 : Ref sig .tc := ⟨.hbm, 1370, rfl⟩
abbrev main_v1193 : Ref sig .tc := ⟨.hbm, 1371, rfl⟩
abbrev main_v1194 : Ref sig .tc := ⟨.hbm, 1372, rfl⟩
abbrev main_v1195 : Ref sig .tc := ⟨.hbm, 1373, rfl⟩
abbrev main_v1196 : Ref sig .tc := ⟨.hbm, 1374, rfl⟩
abbrev main_v1197 : Ref sig .tc := ⟨.hbm, 1375, rfl⟩
abbrev main_v1198 : Ref sig .tc := ⟨.hbm, 1376, rfl⟩
abbrev main_v1199 : Ref sig .tc := ⟨.hbm, 1377, rfl⟩
abbrev main_cst_173 : Ref sig .tc := ⟨.hbm, 1378, rfl⟩
abbrev main_v1200 : Ref sig .tc := ⟨.hbm, 1379, rfl⟩
abbrev main_v1201 : Ref sig .tc := ⟨.hbm, 1380, rfl⟩
abbrev main_cst_174 : Ref sig .tc := ⟨.hbm, 1381, rfl⟩
abbrev main_v1202 : Ref sig .tc := ⟨.hbm, 1382, rfl⟩
abbrev main_v1203 : Ref sig .tc := ⟨.hbm, 1383, rfl⟩
abbrev main_v1204 : Ref sig .tc := ⟨.hbm, 1384, rfl⟩
abbrev main_v1205 : Ref sig .tc := ⟨.hbm, 1385, rfl⟩
abbrev main_v1206 : Ref sig .tc := ⟨.hbm, 1386, rfl⟩
abbrev main_v1207 : Ref sig .tc := ⟨.hbm, 1387, rfl⟩
abbrev main_v1208 : Ref sig .tc := ⟨.hbm, 1388, rfl⟩
abbrev main_v1209 : Ref sig .tc := ⟨.hbm, 1389, rfl⟩
abbrev main_v1210 : Ref sig .tc := ⟨.hbm, 1390, rfl⟩
abbrev main_v1211 : Ref sig .tc := ⟨.hbm, 1391, rfl⟩
abbrev main_v1212 : Ref sig .tc := ⟨.hbm, 1392, rfl⟩
abbrev main_v1213 : Ref sig .tc := ⟨.hbm, 1393, rfl⟩
abbrev main_cst_175 : Ref sig .tc := ⟨.hbm, 1394, rfl⟩
abbrev main_v1214 : Ref sig .tc := ⟨.hbm, 1395, rfl⟩
abbrev main_v1215 : Ref sig .tc := ⟨.hbm, 1396, rfl⟩
abbrev main_cst_176 : Ref sig .tc := ⟨.hbm, 1397, rfl⟩
abbrev main_v1216 : Ref sig .tc := ⟨.hbm, 1398, rfl⟩
abbrev main_v1217 : Ref sig .tc := ⟨.hbm, 1399, rfl⟩
abbrev main_v1218 : Ref sig .tc := ⟨.hbm, 1400, rfl⟩
abbrev main_v1219 : Ref sig .tc := ⟨.hbm, 1401, rfl⟩
abbrev main_v1220 : Ref sig .tc := ⟨.hbm, 1402, rfl⟩
abbrev main_v1221 : Ref sig .tc := ⟨.hbm, 1403, rfl⟩
abbrev main_v1222 : Ref sig .tc := ⟨.hbm, 1404, rfl⟩
abbrev main_v1223 : Ref sig .tc := ⟨.hbm, 1405, rfl⟩
abbrev main_v1224 : Ref sig .tc := ⟨.hbm, 1406, rfl⟩
abbrev main_v1225 : Ref sig .tc := ⟨.hbm, 1407, rfl⟩
abbrev main_v1226 : Ref sig .tc := ⟨.hbm, 1408, rfl⟩
abbrev main_v1227 : Ref sig .tc := ⟨.hbm, 1409, rfl⟩
abbrev main_cst_177 : Ref sig .tc := ⟨.hbm, 1410, rfl⟩
abbrev main_v1228 : Ref sig .tc := ⟨.hbm, 1411, rfl⟩
abbrev main_v1229 : Ref sig .tc := ⟨.hbm, 1412, rfl⟩
abbrev main_cst_178 : Ref sig .tc := ⟨.hbm, 1413, rfl⟩
abbrev main_v1230 : Ref sig .tc := ⟨.hbm, 1414, rfl⟩
abbrev main_v1231 : Ref sig .tc := ⟨.hbm, 1415, rfl⟩
abbrev main_v1232 : Ref sig .tc := ⟨.hbm, 1416, rfl⟩
abbrev main_v1233 : Ref sig .tc := ⟨.hbm, 1417, rfl⟩
abbrev main_v1234 : Ref sig .tc := ⟨.hbm, 1418, rfl⟩
abbrev main_v1235 : Ref sig .tc := ⟨.hbm, 1419, rfl⟩
abbrev main_v1236 : Ref sig .tc := ⟨.hbm, 1420, rfl⟩
abbrev main_v1237 : Ref sig .tc := ⟨.hbm, 1421, rfl⟩
abbrev main_v1238 : Ref sig .tc := ⟨.hbm, 1422, rfl⟩
abbrev main_v1239 : Ref sig .tc := ⟨.hbm, 1423, rfl⟩
abbrev main_v1240 : Ref sig .tc := ⟨.hbm, 1424, rfl⟩
abbrev main_v1241 : Ref sig .tc := ⟨.hbm, 1425, rfl⟩
abbrev main_cst_179 : Ref sig .tc := ⟨.hbm, 1426, rfl⟩
abbrev main_v1242 : Ref sig .tc := ⟨.hbm, 1427, rfl⟩
abbrev main_v1243 : Ref sig .tc := ⟨.hbm, 1428, rfl⟩
abbrev main_cst_180 : Ref sig .tc := ⟨.hbm, 1429, rfl⟩
abbrev main_v1244 : Ref sig .tc := ⟨.hbm, 1430, rfl⟩
abbrev main_v1245 : Ref sig .tc := ⟨.hbm, 1431, rfl⟩
abbrev main_v1246 : Ref sig .tc := ⟨.hbm, 1432, rfl⟩
abbrev main_v1247 : Ref sig .tc := ⟨.hbm, 1433, rfl⟩
abbrev main_v1248 : Ref sig .tc := ⟨.hbm, 1434, rfl⟩
abbrev main_v1249 : Ref sig .tc := ⟨.hbm, 1435, rfl⟩
abbrev main_v1250 : Ref sig .tc := ⟨.hbm, 1436, rfl⟩
abbrev main_v1251 : Ref sig .tc := ⟨.hbm, 1437, rfl⟩
abbrev main_v1252 : Ref sig .tc := ⟨.hbm, 1438, rfl⟩
abbrev main_v1253 : Ref sig .tc := ⟨.hbm, 1439, rfl⟩
abbrev main_v1254 : Ref sig .tc := ⟨.hbm, 1440, rfl⟩
abbrev main_v1255 : Ref sig .tc := ⟨.hbm, 1441, rfl⟩
abbrev main_cst_181 : Ref sig .tc := ⟨.hbm, 1442, rfl⟩
abbrev main_v1256 : Ref sig .tc := ⟨.hbm, 1443, rfl⟩
abbrev main_v1257 : Ref sig .tc := ⟨.hbm, 1444, rfl⟩
abbrev main_cst_182 : Ref sig .tc := ⟨.hbm, 1445, rfl⟩
abbrev main_v1258 : Ref sig .tc := ⟨.hbm, 1446, rfl⟩
abbrev main_v1259 : Ref sig .tc := ⟨.hbm, 1447, rfl⟩
abbrev main_v1260 : Ref sig .tc := ⟨.hbm, 1448, rfl⟩
abbrev main_v1261 : Ref sig .tc := ⟨.hbm, 1449, rfl⟩
abbrev main_v1262 : Ref sig .tc := ⟨.hbm, 1450, rfl⟩
abbrev main_v1263 : Ref sig .tc := ⟨.hbm, 1451, rfl⟩
abbrev main_v1264 : Ref sig .tc := ⟨.hbm, 1452, rfl⟩
abbrev main_v1265 : Ref sig .tc := ⟨.hbm, 1453, rfl⟩
abbrev main_v1266 : Ref sig .tc := ⟨.hbm, 1454, rfl⟩
abbrev main_v1267 : Ref sig .tc := ⟨.hbm, 1455, rfl⟩
abbrev main_v1268 : Ref sig .tc := ⟨.hbm, 1456, rfl⟩
abbrev main_v1269 : Ref sig .tc := ⟨.hbm, 1457, rfl⟩
abbrev main_cst_183 : Ref sig .tc := ⟨.hbm, 1458, rfl⟩
abbrev main_v1270 : Ref sig .tc := ⟨.hbm, 1459, rfl⟩
abbrev main_v1271 : Ref sig .tc := ⟨.hbm, 1460, rfl⟩
abbrev main_cst_184 : Ref sig .tc := ⟨.hbm, 1461, rfl⟩
abbrev main_v1272 : Ref sig .tc := ⟨.hbm, 1462, rfl⟩
abbrev main_v1273 : Ref sig .tc := ⟨.hbm, 1463, rfl⟩
abbrev main_v1274 : Ref sig .tc := ⟨.hbm, 1464, rfl⟩
abbrev main_v1275 : Ref sig .tc := ⟨.hbm, 1465, rfl⟩
abbrev main_v1276 : Ref sig .tc := ⟨.hbm, 1466, rfl⟩
abbrev main_v1277 : Ref sig .tc := ⟨.hbm, 1467, rfl⟩
abbrev main_v1278 : Ref sig .tc := ⟨.hbm, 1468, rfl⟩
abbrev main_v1279 : Ref sig .tc := ⟨.hbm, 1469, rfl⟩
abbrev main_v1280 : Ref sig .tc := ⟨.hbm, 1470, rfl⟩
abbrev main_v1281 : Ref sig .tc := ⟨.hbm, 1471, rfl⟩
abbrev main_v1282 : Ref sig .tc := ⟨.hbm, 1472, rfl⟩
abbrev main_v1283 : Ref sig .tc := ⟨.hbm, 1473, rfl⟩
abbrev main_cst_185 : Ref sig .tc := ⟨.hbm, 1474, rfl⟩
abbrev main_v1284 : Ref sig .tc := ⟨.hbm, 1475, rfl⟩
abbrev main_v1285 : Ref sig .tc := ⟨.hbm, 1476, rfl⟩
abbrev main_cst_186 : Ref sig .tc := ⟨.hbm, 1477, rfl⟩
abbrev main_v1286 : Ref sig .tc := ⟨.hbm, 1478, rfl⟩
abbrev main_v1287 : Ref sig .tc := ⟨.hbm, 1479, rfl⟩
abbrev main_v1288 : Ref sig .tc := ⟨.hbm, 1480, rfl⟩
abbrev main_v1289 : Ref sig .tc := ⟨.hbm, 1481, rfl⟩
abbrev main_v1290 : Ref sig .tc := ⟨.hbm, 1482, rfl⟩
abbrev main_v1291 : Ref sig .tc := ⟨.hbm, 1483, rfl⟩
abbrev main_v1292 : Ref sig .tc := ⟨.hbm, 1484, rfl⟩
abbrev main_v1293 : Ref sig .tc := ⟨.hbm, 1485, rfl⟩
abbrev main_v1294 : Ref sig .tc := ⟨.hbm, 1486, rfl⟩
abbrev main_v1295 : Ref sig .tc := ⟨.hbm, 1487, rfl⟩
abbrev main_v1296 : Ref sig .tc := ⟨.hbm, 1488, rfl⟩
abbrev main_v1297 : Ref sig .tc := ⟨.hbm, 1489, rfl⟩
abbrev main_cst_187 : Ref sig .tc := ⟨.hbm, 1490, rfl⟩
abbrev main_v1298 : Ref sig .tc := ⟨.hbm, 1491, rfl⟩
abbrev main_v1299 : Ref sig .tc := ⟨.hbm, 1492, rfl⟩
abbrev main_cst_188 : Ref sig .tc := ⟨.hbm, 1493, rfl⟩
abbrev main_v1300 : Ref sig .tc := ⟨.hbm, 1494, rfl⟩
abbrev main_v1301 : Ref sig .tc := ⟨.hbm, 1495, rfl⟩
abbrev main_v1302 : Ref sig .tc := ⟨.hbm, 1496, rfl⟩
abbrev main_v1303 : Ref sig .tc := ⟨.hbm, 1497, rfl⟩
abbrev main_v1304 : Ref sig .tc := ⟨.hbm, 1498, rfl⟩
abbrev main_v1305 : Ref sig .tc := ⟨.hbm, 1499, rfl⟩
abbrev main_v1306 : Ref sig .tc := ⟨.hbm, 1500, rfl⟩
abbrev main_v1307 : Ref sig .tc := ⟨.hbm, 1501, rfl⟩
abbrev main_v1308 : Ref sig .tc := ⟨.hbm, 1502, rfl⟩
abbrev main_v1309 : Ref sig .tc := ⟨.hbm, 1503, rfl⟩
abbrev main_v1310 : Ref sig .tc := ⟨.hbm, 1504, rfl⟩
abbrev main_v1311 : Ref sig .tc := ⟨.hbm, 1505, rfl⟩
abbrev main_cst_189 : Ref sig .tc := ⟨.hbm, 1506, rfl⟩
abbrev main_v1312 : Ref sig .tc := ⟨.hbm, 1507, rfl⟩
abbrev main_v1313 : Ref sig .tc := ⟨.hbm, 1508, rfl⟩
abbrev main_cst_190 : Ref sig .tc := ⟨.hbm, 1509, rfl⟩
abbrev main_v1314 : Ref sig .tc := ⟨.hbm, 1510, rfl⟩
abbrev main_v1315 : Ref sig .tc := ⟨.hbm, 1511, rfl⟩
abbrev main_v1316 : Ref sig .tc := ⟨.hbm, 1512, rfl⟩
abbrev main_v1317 : Ref sig .tc := ⟨.hbm, 1513, rfl⟩
abbrev main_v1318 : Ref sig .tc := ⟨.hbm, 1514, rfl⟩
abbrev main_v1319 : Ref sig .tc := ⟨.hbm, 1515, rfl⟩
abbrev main_v1320 : Ref sig .tc := ⟨.hbm, 1516, rfl⟩
abbrev main_v1321 : Ref sig .tc := ⟨.hbm, 1517, rfl⟩
abbrev main_v1322 : Ref sig .tc := ⟨.hbm, 1518, rfl⟩
abbrev main_v1323 : Ref sig .tc := ⟨.hbm, 1519, rfl⟩
abbrev main_v1324 : Ref sig .tc := ⟨.hbm, 1520, rfl⟩
abbrev main_v1325 : Ref sig .tc := ⟨.hbm, 1521, rfl⟩
abbrev main_cst_191 : Ref sig .tc := ⟨.hbm, 1522, rfl⟩
abbrev main_v1326 : Ref sig .tc := ⟨.hbm, 1523, rfl⟩
abbrev main_v1327 : Ref sig .tc := ⟨.hbm, 1524, rfl⟩
abbrev main_cst_192 : Ref sig .tc := ⟨.hbm, 1525, rfl⟩
abbrev main_v1328 : Ref sig .tc := ⟨.hbm, 1526, rfl⟩
abbrev main_v1329 : Ref sig .tc := ⟨.hbm, 1527, rfl⟩
abbrev main_v1330 : Ref sig .tc := ⟨.hbm, 1528, rfl⟩
abbrev main_v1331 : Ref sig .tc := ⟨.hbm, 1529, rfl⟩
abbrev main_v1332 : Ref sig .tc := ⟨.hbm, 1530, rfl⟩
abbrev main_v1333 : Ref sig .tc := ⟨.hbm, 1531, rfl⟩
abbrev main_v1334 : Ref sig .tc := ⟨.hbm, 1532, rfl⟩
abbrev main_v1335 : Ref sig .tc := ⟨.hbm, 1533, rfl⟩
abbrev main_v1336 : Ref sig .tc := ⟨.hbm, 1534, rfl⟩
abbrev main_v1337 : Ref sig .tc := ⟨.hbm, 1535, rfl⟩
abbrev main_v1338 : Ref sig .tc := ⟨.hbm, 1536, rfl⟩
abbrev main_v1339 : Ref sig .tc := ⟨.hbm, 1537, rfl⟩
abbrev main_cst_193 : Ref sig .tc := ⟨.hbm, 1538, rfl⟩
abbrev main_v1340 : Ref sig .tc := ⟨.hbm, 1539, rfl⟩
abbrev main_v1341 : Ref sig .tc := ⟨.hbm, 1540, rfl⟩
abbrev main_cst_194 : Ref sig .tc := ⟨.hbm, 1541, rfl⟩
abbrev main_v1342 : Ref sig .tc := ⟨.hbm, 1542, rfl⟩
abbrev main_v1343 : Ref sig .tc := ⟨.hbm, 1543, rfl⟩
abbrev main_v1344 : Ref sig .tc := ⟨.hbm, 1544, rfl⟩
abbrev main_v1345 : Ref sig .tc := ⟨.hbm, 1545, rfl⟩
abbrev main_v1346 : Ref sig .tc := ⟨.hbm, 1546, rfl⟩
abbrev main_v1347 : Ref sig .tc := ⟨.hbm, 1547, rfl⟩
abbrev main_v1348 : Ref sig .tc := ⟨.hbm, 1548, rfl⟩
abbrev main_v1349 : Ref sig .tc := ⟨.hbm, 1549, rfl⟩
abbrev main_v1350 : Ref sig .tc := ⟨.hbm, 1550, rfl⟩
abbrev main_v1351 : Ref sig .tc := ⟨.hbm, 1551, rfl⟩
abbrev main_v1352 : Ref sig .tc := ⟨.hbm, 1552, rfl⟩
abbrev main_v1353 : Ref sig .tc := ⟨.hbm, 1553, rfl⟩
abbrev main_cst_195 : Ref sig .tc := ⟨.hbm, 1554, rfl⟩
abbrev main_v1354 : Ref sig .tc := ⟨.hbm, 1555, rfl⟩
abbrev main_v1355 : Ref sig .tc := ⟨.hbm, 1556, rfl⟩
abbrev main_cst_196 : Ref sig .tc := ⟨.hbm, 1557, rfl⟩
abbrev main_v1356 : Ref sig .tc := ⟨.hbm, 1558, rfl⟩
abbrev main_v1357 : Ref sig .tc := ⟨.hbm, 1559, rfl⟩
abbrev main_v1358 : Ref sig .tc := ⟨.hbm, 1560, rfl⟩
abbrev main_v1359 : Ref sig .tc := ⟨.hbm, 1561, rfl⟩
abbrev main_v1360 : Ref sig .tc := ⟨.hbm, 1562, rfl⟩
abbrev main_v1361 : Ref sig .tc := ⟨.hbm, 1563, rfl⟩
abbrev main_v1362 : Ref sig .tc := ⟨.hbm, 1564, rfl⟩
abbrev main_v1363 : Ref sig .tc := ⟨.hbm, 1565, rfl⟩
abbrev main_v1364 : Ref sig .tc := ⟨.hbm, 1566, rfl⟩
abbrev main_v1365 : Ref sig .tc := ⟨.hbm, 1567, rfl⟩
abbrev main_v1366 : Ref sig .tc := ⟨.hbm, 1568, rfl⟩
abbrev main_v1367 : Ref sig .tc := ⟨.hbm, 1569, rfl⟩
abbrev main_cst_197 : Ref sig .tc := ⟨.hbm, 1570, rfl⟩
abbrev main_v1368 : Ref sig .tc := ⟨.hbm, 1571, rfl⟩
abbrev main_v1369 : Ref sig .tc := ⟨.hbm, 1572, rfl⟩
abbrev main_cst_198 : Ref sig .tc := ⟨.hbm, 1573, rfl⟩
abbrev main_v1370 : Ref sig .tc := ⟨.hbm, 1574, rfl⟩
abbrev main_v1371 : Ref sig .tc := ⟨.hbm, 1575, rfl⟩
abbrev main_v1372 : Ref sig .tc := ⟨.hbm, 1576, rfl⟩
abbrev main_v1373 : Ref sig .tc := ⟨.hbm, 1577, rfl⟩
abbrev main_v1374 : Ref sig .tc := ⟨.hbm, 1578, rfl⟩
abbrev main_v1375 : Ref sig .tc := ⟨.hbm, 1579, rfl⟩
abbrev main_v1376 : Ref sig .tc := ⟨.hbm, 1580, rfl⟩
abbrev main_v1377 : Ref sig .tc := ⟨.hbm, 1581, rfl⟩
abbrev main_v1378 : Ref sig .tc := ⟨.hbm, 1582, rfl⟩
abbrev main_v1379 : Ref sig .tc := ⟨.hbm, 1583, rfl⟩
abbrev main_v1380 : Ref sig .tc := ⟨.hbm, 1584, rfl⟩
abbrev main_v1381 : Ref sig .tc := ⟨.hbm, 1585, rfl⟩
abbrev main_cst_199 : Ref sig .tc := ⟨.hbm, 1586, rfl⟩
abbrev main_v1382 : Ref sig .tc := ⟨.hbm, 1587, rfl⟩
abbrev main_v1383 : Ref sig .tc := ⟨.hbm, 1588, rfl⟩
abbrev main_cst_200 : Ref sig .tc := ⟨.hbm, 1589, rfl⟩
abbrev main_v1384 : Ref sig .tc := ⟨.hbm, 1590, rfl⟩
abbrev main_v1385 : Ref sig .tc := ⟨.hbm, 1591, rfl⟩
abbrev main_v1386 : Ref sig .tc := ⟨.hbm, 1592, rfl⟩
abbrev main_v1387 : Ref sig .tc := ⟨.hbm, 1593, rfl⟩
abbrev main_v1388 : Ref sig .tc := ⟨.hbm, 1594, rfl⟩
abbrev main_v1389 : Ref sig .tc := ⟨.hbm, 1595, rfl⟩
abbrev main_v1390 : Ref sig .tc := ⟨.hbm, 1596, rfl⟩
abbrev main_v1391 : Ref sig .tc := ⟨.hbm, 1597, rfl⟩
abbrev main_v1392 : Ref sig .tc := ⟨.hbm, 1598, rfl⟩
abbrev main_v1393 : Ref sig .tc := ⟨.hbm, 1599, rfl⟩
abbrev main_v1394 : Ref sig .tc := ⟨.hbm, 1600, rfl⟩
abbrev main_v1395 : Ref sig .tc := ⟨.hbm, 1601, rfl⟩
abbrev main_cst_201 : Ref sig .tc := ⟨.hbm, 1602, rfl⟩
abbrev main_v1396 : Ref sig .tc := ⟨.hbm, 1603, rfl⟩
abbrev main_v1397 : Ref sig .tc := ⟨.hbm, 1604, rfl⟩
abbrev main_cst_202 : Ref sig .tc := ⟨.hbm, 1605, rfl⟩
abbrev main_v1398 : Ref sig .tc := ⟨.hbm, 1606, rfl⟩
abbrev main_v1399 : Ref sig .tc := ⟨.hbm, 1607, rfl⟩
abbrev main_v1400 : Ref sig .tc := ⟨.hbm, 1608, rfl⟩
abbrev main_v1401 : Ref sig .tc := ⟨.hbm, 1609, rfl⟩
abbrev main_v1402 : Ref sig .tc := ⟨.hbm, 1610, rfl⟩
abbrev main_v1403 : Ref sig .tc := ⟨.hbm, 1611, rfl⟩
abbrev main_v1404 : Ref sig .tc := ⟨.hbm, 1612, rfl⟩
abbrev main_v1405 : Ref sig .tc := ⟨.hbm, 1613, rfl⟩
abbrev main_v1406 : Ref sig .tc := ⟨.hbm, 1614, rfl⟩
abbrev main_v1407 : Ref sig .tc := ⟨.hbm, 1615, rfl⟩
abbrev main_v1408 : Ref sig .tc := ⟨.hbm, 1616, rfl⟩
abbrev main_v1409 : Ref sig .tc := ⟨.hbm, 1617, rfl⟩
abbrev main_cst_203 : Ref sig .tc := ⟨.hbm, 1618, rfl⟩
abbrev main_v1410 : Ref sig .tc := ⟨.hbm, 1619, rfl⟩
abbrev main_v1411 : Ref sig .tc := ⟨.hbm, 1620, rfl⟩
abbrev main_cst_204 : Ref sig .tc := ⟨.hbm, 1621, rfl⟩
abbrev main_v1412 : Ref sig .tc := ⟨.hbm, 1622, rfl⟩
abbrev main_v1413 : Ref sig .tc := ⟨.hbm, 1623, rfl⟩
abbrev main_v1414 : Ref sig .tc := ⟨.hbm, 1624, rfl⟩
abbrev main_v1415 : Ref sig .tc := ⟨.hbm, 1625, rfl⟩
abbrev main_v1416 : Ref sig .tc := ⟨.hbm, 1626, rfl⟩
abbrev main_v1417 : Ref sig .tc := ⟨.hbm, 1627, rfl⟩
abbrev main_v1418 : Ref sig .tc := ⟨.hbm, 1628, rfl⟩
abbrev main_v1419 : Ref sig .tc := ⟨.hbm, 1629, rfl⟩
abbrev main_v1420 : Ref sig .tc := ⟨.hbm, 1630, rfl⟩
abbrev main_v1421 : Ref sig .tc := ⟨.hbm, 1631, rfl⟩
abbrev main_v1422 : Ref sig .tc := ⟨.hbm, 1632, rfl⟩
abbrev main_v1423 : Ref sig .tc := ⟨.hbm, 1633, rfl⟩
abbrev main_cst_205 : Ref sig .tc := ⟨.hbm, 1634, rfl⟩
abbrev main_v1424 : Ref sig .tc := ⟨.hbm, 1635, rfl⟩
abbrev main_v1425 : Ref sig .tc := ⟨.hbm, 1636, rfl⟩
abbrev main_cst_206 : Ref sig .tc := ⟨.hbm, 1637, rfl⟩
abbrev main_v1426 : Ref sig .tc := ⟨.hbm, 1638, rfl⟩
abbrev main_v1427 : Ref sig .tc := ⟨.hbm, 1639, rfl⟩
abbrev main_v1428 : Ref sig .tc := ⟨.hbm, 1640, rfl⟩
abbrev main_v1429 : Ref sig .tc := ⟨.hbm, 1641, rfl⟩
abbrev main_v1430 : Ref sig .tc := ⟨.hbm, 1642, rfl⟩
abbrev main_v1431 : Ref sig .tc := ⟨.hbm, 1643, rfl⟩
abbrev main_v1432 : Ref sig .tc := ⟨.hbm, 1644, rfl⟩
abbrev main_v1433 : Ref sig .tc := ⟨.hbm, 1645, rfl⟩
abbrev main_v1434 : Ref sig .tc := ⟨.hbm, 1646, rfl⟩
abbrev main_v1435 : Ref sig .tc := ⟨.hbm, 1647, rfl⟩
abbrev main_v1436 : Ref sig .tc := ⟨.hbm, 1648, rfl⟩
abbrev main_v1437 : Ref sig .tc := ⟨.hbm, 1649, rfl⟩
abbrev main_cst_207 : Ref sig .tc := ⟨.hbm, 1650, rfl⟩
abbrev main_v1438 : Ref sig .tc := ⟨.hbm, 1651, rfl⟩
abbrev main_v1439 : Ref sig .tc := ⟨.hbm, 1652, rfl⟩
abbrev main_cst_208 : Ref sig .tc := ⟨.hbm, 1653, rfl⟩
abbrev main_v1440 : Ref sig .tc := ⟨.hbm, 1654, rfl⟩
abbrev main_v1441 : Ref sig .tc := ⟨.hbm, 1655, rfl⟩
abbrev main_v1442 : Ref sig .tc := ⟨.hbm, 1656, rfl⟩
abbrev main_v1443 : Ref sig .tc := ⟨.hbm, 1657, rfl⟩
abbrev main_v1444 : Ref sig .tc := ⟨.hbm, 1658, rfl⟩
abbrev main_v1445 : Ref sig .tc := ⟨.hbm, 1659, rfl⟩
abbrev main_v1446 : Ref sig .tc := ⟨.hbm, 1660, rfl⟩
abbrev main_v1447 : Ref sig .tc := ⟨.hbm, 1661, rfl⟩
abbrev main_v1448 : Ref sig .tc := ⟨.hbm, 1662, rfl⟩
abbrev main_v1449 : Ref sig .tc := ⟨.hbm, 1663, rfl⟩
abbrev main_v1450 : Ref sig .tc := ⟨.hbm, 1664, rfl⟩
abbrev main_v1451 : Ref sig .tc := ⟨.hbm, 1665, rfl⟩
abbrev main_cst_209 : Ref sig .tc := ⟨.hbm, 1666, rfl⟩
abbrev main_v1452 : Ref sig .tc := ⟨.hbm, 1667, rfl⟩
abbrev main_v1453 : Ref sig .tc := ⟨.hbm, 1668, rfl⟩
abbrev main_cst_210 : Ref sig .tc := ⟨.hbm, 1669, rfl⟩
abbrev main_v1454 : Ref sig .tc := ⟨.hbm, 1670, rfl⟩
abbrev main_v1455 : Ref sig .tc := ⟨.hbm, 1671, rfl⟩
abbrev main_v1456 : Ref sig .tc := ⟨.hbm, 1672, rfl⟩
abbrev main_v1457 : Ref sig .tc := ⟨.hbm, 1673, rfl⟩
abbrev main_v1458 : Ref sig .tc := ⟨.hbm, 1674, rfl⟩
abbrev main_v1459 : Ref sig .tc := ⟨.hbm, 1675, rfl⟩
abbrev main_v1460 : Ref sig .tc := ⟨.hbm, 1676, rfl⟩
abbrev main_v1461 : Ref sig .tc := ⟨.hbm, 1677, rfl⟩
abbrev main_v1462 : Ref sig .tc := ⟨.hbm, 1678, rfl⟩
abbrev main_v1463 : Ref sig .tc := ⟨.hbm, 1679, rfl⟩
abbrev main_v1464 : Ref sig .tc := ⟨.hbm, 1680, rfl⟩
abbrev main_v1465 : Ref sig .tc := ⟨.hbm, 1681, rfl⟩
abbrev main_cst_211 : Ref sig .tc := ⟨.hbm, 1682, rfl⟩
abbrev main_v1466 : Ref sig .tc := ⟨.hbm, 1683, rfl⟩
abbrev main_v1467 : Ref sig .tc := ⟨.hbm, 1684, rfl⟩
abbrev main_cst_212 : Ref sig .tc := ⟨.hbm, 1685, rfl⟩
abbrev main_v1468 : Ref sig .tc := ⟨.hbm, 1686, rfl⟩
abbrev main_v1469 : Ref sig .tc := ⟨.hbm, 1687, rfl⟩
abbrev main_v1470 : Ref sig .tc := ⟨.hbm, 1688, rfl⟩
abbrev main_v1471 : Ref sig .tc := ⟨.hbm, 1689, rfl⟩
abbrev main_v1472 : Ref sig .tc := ⟨.hbm, 1690, rfl⟩
abbrev main_v1473 : Ref sig .tc := ⟨.hbm, 1691, rfl⟩
abbrev main_v1474 : Ref sig .tc := ⟨.hbm, 1692, rfl⟩
abbrev main_v1475 : Ref sig .tc := ⟨.hbm, 1693, rfl⟩
abbrev main_v1476 : Ref sig .tc := ⟨.hbm, 1694, rfl⟩
abbrev main_v1477 : Ref sig .tc := ⟨.hbm, 1695, rfl⟩
abbrev main_v1478 : Ref sig .tc := ⟨.hbm, 1696, rfl⟩
abbrev main_v1479 : Ref sig .tc := ⟨.hbm, 1697, rfl⟩
abbrev main_cst_213 : Ref sig .tc := ⟨.hbm, 1698, rfl⟩
abbrev main_v1480 : Ref sig .tc := ⟨.hbm, 1699, rfl⟩
abbrev main_v1481 : Ref sig .tc := ⟨.hbm, 1700, rfl⟩
abbrev main_cst_214 : Ref sig .tc := ⟨.hbm, 1701, rfl⟩
abbrev main_v1482 : Ref sig .tc := ⟨.hbm, 1702, rfl⟩
abbrev main_v1483 : Ref sig .tc := ⟨.hbm, 1703, rfl⟩
abbrev main_v1484 : Ref sig .tc := ⟨.hbm, 1704, rfl⟩
abbrev main_v1485 : Ref sig .tc := ⟨.hbm, 1705, rfl⟩
abbrev main_v1486 : Ref sig .tc := ⟨.hbm, 1706, rfl⟩
abbrev main_v1487 : Ref sig .tc := ⟨.hbm, 1707, rfl⟩
abbrev main_v1488 : Ref sig .tc := ⟨.hbm, 1708, rfl⟩
abbrev main_v1489 : Ref sig .tc := ⟨.hbm, 1709, rfl⟩
abbrev main_v1490 : Ref sig .tc := ⟨.hbm, 1710, rfl⟩
abbrev main_v1491 : Ref sig .tc := ⟨.hbm, 1711, rfl⟩
abbrev main_v1492 : Ref sig .tc := ⟨.hbm, 1712, rfl⟩
abbrev main_v1493 : Ref sig .tc := ⟨.hbm, 1713, rfl⟩
abbrev main_cst_215 : Ref sig .tc := ⟨.hbm, 1714, rfl⟩
abbrev main_v1494 : Ref sig .tc := ⟨.hbm, 1715, rfl⟩
abbrev main_v1495 : Ref sig .tc := ⟨.hbm, 1716, rfl⟩
abbrev main_cst_216 : Ref sig .tc := ⟨.hbm, 1717, rfl⟩
abbrev main_v1496 : Ref sig .tc := ⟨.hbm, 1718, rfl⟩
abbrev main_v1497 : Ref sig .tc := ⟨.hbm, 1719, rfl⟩
abbrev main_v1498 : Ref sig .tc := ⟨.hbm, 1720, rfl⟩
abbrev main_v1499 : Ref sig .tc := ⟨.hbm, 1721, rfl⟩
abbrev main_v1500 : Ref sig .tc := ⟨.hbm, 1722, rfl⟩
abbrev main_v1501 : Ref sig .tc := ⟨.hbm, 1723, rfl⟩
abbrev main_v1502 : Ref sig .tc := ⟨.hbm, 1724, rfl⟩
abbrev main_v1503 : Ref sig .tc := ⟨.hbm, 1725, rfl⟩
abbrev main_v1504 : Ref sig .tc := ⟨.hbm, 1726, rfl⟩
abbrev main_v1505 : Ref sig .tc := ⟨.hbm, 1727, rfl⟩
abbrev main_v1506 : Ref sig .tc := ⟨.hbm, 1728, rfl⟩
abbrev main_v1507 : Ref sig .tc := ⟨.hbm, 1729, rfl⟩
abbrev main_cst_217 : Ref sig .tc := ⟨.hbm, 1730, rfl⟩
abbrev main_v1508 : Ref sig .tc := ⟨.hbm, 1731, rfl⟩
abbrev main_v1509 : Ref sig .tc := ⟨.hbm, 1732, rfl⟩
abbrev main_cst_218 : Ref sig .tc := ⟨.hbm, 1733, rfl⟩
abbrev main_v1510 : Ref sig .tc := ⟨.hbm, 1734, rfl⟩
abbrev main_v1511 : Ref sig .tc := ⟨.hbm, 1735, rfl⟩
abbrev main_v1512 : Ref sig .tc := ⟨.hbm, 1736, rfl⟩
abbrev main_v1513 : Ref sig .tc := ⟨.hbm, 1737, rfl⟩
abbrev main_v1514 : Ref sig .tc := ⟨.hbm, 1738, rfl⟩
abbrev main_v1515 : Ref sig .tc := ⟨.hbm, 1739, rfl⟩
abbrev main_v1516 : Ref sig .tc := ⟨.hbm, 1740, rfl⟩
abbrev main_v1517 : Ref sig .tc := ⟨.hbm, 1741, rfl⟩
abbrev main_v1518 : Ref sig .tc := ⟨.hbm, 1742, rfl⟩
abbrev main_v1519 : Ref sig .tc := ⟨.hbm, 1743, rfl⟩
abbrev main_v1520 : Ref sig .tc := ⟨.hbm, 1744, rfl⟩
abbrev main_v1521 : Ref sig .tc := ⟨.hbm, 1745, rfl⟩
abbrev main_cst_219 : Ref sig .tc := ⟨.hbm, 1746, rfl⟩
abbrev main_v1522 : Ref sig .tc := ⟨.hbm, 1747, rfl⟩
abbrev main_v1523 : Ref sig .tc := ⟨.hbm, 1748, rfl⟩
abbrev main_cst_220 : Ref sig .tc := ⟨.hbm, 1749, rfl⟩
abbrev main_v1524 : Ref sig .tc := ⟨.hbm, 1750, rfl⟩
abbrev main_v1525 : Ref sig .tc := ⟨.hbm, 1751, rfl⟩
abbrev main_v1526 : Ref sig .tc := ⟨.hbm, 1752, rfl⟩
abbrev main_v1527 : Ref sig .tc := ⟨.hbm, 1753, rfl⟩
abbrev main_v1528 : Ref sig .tc := ⟨.hbm, 1754, rfl⟩
abbrev main_v1529 : Ref sig .tc := ⟨.hbm, 1755, rfl⟩
abbrev main_v1530 : Ref sig .tc := ⟨.hbm, 1756, rfl⟩
abbrev main_v1531 : Ref sig .tc := ⟨.hbm, 1757, rfl⟩
abbrev main_v1532 : Ref sig .tc := ⟨.hbm, 1758, rfl⟩
abbrev main_v1533 : Ref sig .tc := ⟨.hbm, 1759, rfl⟩
abbrev main_v1534 : Ref sig .tc := ⟨.hbm, 1760, rfl⟩
abbrev main_v1535 : Ref sig .tc := ⟨.hbm, 1761, rfl⟩
abbrev main_cst_221 : Ref sig .tc := ⟨.hbm, 1762, rfl⟩
abbrev main_v1536 : Ref sig .tc := ⟨.hbm, 1763, rfl⟩
abbrev main_v1537 : Ref sig .tc := ⟨.hbm, 1764, rfl⟩
abbrev main_cst_222 : Ref sig .tc := ⟨.hbm, 1765, rfl⟩
abbrev main_v1538 : Ref sig .tc := ⟨.hbm, 1766, rfl⟩
abbrev main_v1539 : Ref sig .tc := ⟨.hbm, 1767, rfl⟩
abbrev main_v1540 : Ref sig .tc := ⟨.hbm, 1768, rfl⟩
abbrev main_v1541 : Ref sig .tc := ⟨.hbm, 1769, rfl⟩
abbrev main_v1542 : Ref sig .tc := ⟨.hbm, 1770, rfl⟩
abbrev main_v1543 : Ref sig .tc := ⟨.hbm, 1771, rfl⟩
abbrev main_v1544 : Ref sig .tc := ⟨.hbm, 1772, rfl⟩
abbrev main_v1545 : Ref sig .tc := ⟨.hbm, 1773, rfl⟩
abbrev main_v1546 : Ref sig .tc := ⟨.hbm, 1774, rfl⟩
abbrev main_v1547 : Ref sig .tc := ⟨.hbm, 1775, rfl⟩
abbrev main_v1548 : Ref sig .tc := ⟨.hbm, 1776, rfl⟩
abbrev main_v1549 : Ref sig .tc := ⟨.hbm, 1777, rfl⟩
abbrev main_cst_223 : Ref sig .tc := ⟨.hbm, 1778, rfl⟩
abbrev main_v1550 : Ref sig .tc := ⟨.hbm, 1779, rfl⟩
abbrev main_v1551 : Ref sig .tc := ⟨.hbm, 1780, rfl⟩
abbrev main_cst_224 : Ref sig .tc := ⟨.hbm, 1781, rfl⟩
abbrev main_v1552 : Ref sig .tc := ⟨.hbm, 1782, rfl⟩
abbrev main_v1553 : Ref sig .tc := ⟨.hbm, 1783, rfl⟩
abbrev main_v1554 : Ref sig .tc := ⟨.hbm, 1784, rfl⟩
abbrev main_v1555 : Ref sig .tc := ⟨.hbm, 1785, rfl⟩
abbrev main_v1556 : Ref sig .tc := ⟨.hbm, 1786, rfl⟩
abbrev main_v1557 : Ref sig .tc := ⟨.hbm, 1787, rfl⟩
abbrev main_v1558 : Ref sig .tc := ⟨.hbm, 1788, rfl⟩
abbrev main_v1559 : Ref sig .tc := ⟨.hbm, 1789, rfl⟩
abbrev main_v1560 : Ref sig .tc := ⟨.hbm, 1790, rfl⟩
abbrev main_v1561 : Ref sig .tc := ⟨.hbm, 1791, rfl⟩
abbrev main_v1562 : Ref sig .tc := ⟨.hbm, 1792, rfl⟩
abbrev main_v1563 : Ref sig .tc := ⟨.hbm, 1793, rfl⟩
abbrev main_cst_225 : Ref sig .tc := ⟨.hbm, 1794, rfl⟩
abbrev main_v1564 : Ref sig .tc := ⟨.hbm, 1795, rfl⟩
abbrev main_v1565 : Ref sig .tc := ⟨.hbm, 1796, rfl⟩
abbrev main_cst_226 : Ref sig .tc := ⟨.hbm, 1797, rfl⟩
abbrev main_v1566 : Ref sig .tc := ⟨.hbm, 1798, rfl⟩
abbrev main_v1567 : Ref sig .tc := ⟨.hbm, 1799, rfl⟩
abbrev main_v1568 : Ref sig .tc := ⟨.hbm, 1800, rfl⟩
abbrev main_v1569 : Ref sig .tc := ⟨.hbm, 1801, rfl⟩
abbrev main_v1570 : Ref sig .tc := ⟨.hbm, 1802, rfl⟩
abbrev main_v1571 : Ref sig .tc := ⟨.hbm, 1803, rfl⟩
abbrev main_v1572 : Ref sig .tc := ⟨.hbm, 1804, rfl⟩
abbrev main_v1573 : Ref sig .tc := ⟨.hbm, 1805, rfl⟩
abbrev main_v1574 : Ref sig .tc := ⟨.hbm, 1806, rfl⟩
abbrev main_v1575 : Ref sig .tc := ⟨.hbm, 1807, rfl⟩
abbrev main_v1576 : Ref sig .tc := ⟨.hbm, 1808, rfl⟩
abbrev main_v1577 : Ref sig .tc := ⟨.hbm, 1809, rfl⟩
abbrev main_cst_227 : Ref sig .tc := ⟨.hbm, 1810, rfl⟩
abbrev main_v1578 : Ref sig .tc := ⟨.hbm, 1811, rfl⟩
abbrev main_v1579 : Ref sig .tc := ⟨.hbm, 1812, rfl⟩
abbrev main_cst_228 : Ref sig .tc := ⟨.hbm, 1813, rfl⟩
abbrev main_v1580 : Ref sig .tc := ⟨.hbm, 1814, rfl⟩
abbrev main_v1581 : Ref sig .tc := ⟨.hbm, 1815, rfl⟩
abbrev main_v1582 : Ref sig .tc := ⟨.hbm, 1816, rfl⟩
abbrev main_v1583 : Ref sig .tc := ⟨.hbm, 1817, rfl⟩
abbrev main_v1584 : Ref sig .tc := ⟨.hbm, 1818, rfl⟩
abbrev main_v1585 : Ref sig .tc := ⟨.hbm, 1819, rfl⟩
abbrev main_v1586 : Ref sig .tc := ⟨.hbm, 1820, rfl⟩
abbrev main_v1587 : Ref sig .tc := ⟨.hbm, 1821, rfl⟩
abbrev main_v1588 : Ref sig .tc := ⟨.hbm, 1822, rfl⟩
abbrev main_v1589 : Ref sig .tc := ⟨.hbm, 1823, rfl⟩
abbrev main_v1590 : Ref sig .tc := ⟨.hbm, 1824, rfl⟩
abbrev main_v1591 : Ref sig .tc := ⟨.hbm, 1825, rfl⟩
abbrev main_cst_229 : Ref sig .tc := ⟨.hbm, 1826, rfl⟩
abbrev main_v1592 : Ref sig .tc := ⟨.hbm, 1827, rfl⟩
abbrev main_v1593 : Ref sig .tc := ⟨.hbm, 1828, rfl⟩
abbrev main_cst_230 : Ref sig .tc := ⟨.hbm, 1829, rfl⟩
abbrev main_v1594 : Ref sig .tc := ⟨.hbm, 1830, rfl⟩
abbrev main_v1595 : Ref sig .tc := ⟨.hbm, 1831, rfl⟩
abbrev main_v1596 : Ref sig .tc := ⟨.hbm, 1832, rfl⟩
abbrev main_v1597 : Ref sig .tc := ⟨.hbm, 1833, rfl⟩
abbrev main_v1598 : Ref sig .tc := ⟨.hbm, 1834, rfl⟩
abbrev main_v1599 : Ref sig .tc := ⟨.hbm, 1835, rfl⟩
abbrev main_v1600 : Ref sig .tc := ⟨.hbm, 1836, rfl⟩
abbrev main_v1601 : Ref sig .tc := ⟨.hbm, 1837, rfl⟩
abbrev main_v1602 : Ref sig .tc := ⟨.hbm, 1838, rfl⟩
abbrev main_v1603 : Ref sig .tc := ⟨.hbm, 1839, rfl⟩
abbrev main_v1604 : Ref sig .tc := ⟨.hbm, 1840, rfl⟩
abbrev main_v1605 : Ref sig .tc := ⟨.hbm, 1841, rfl⟩
abbrev main_cst_231 : Ref sig .tc := ⟨.hbm, 1842, rfl⟩
abbrev main_v1606 : Ref sig .tc := ⟨.hbm, 1843, rfl⟩
abbrev main_v1607 : Ref sig .tc := ⟨.hbm, 1844, rfl⟩
abbrev main_cst_232 : Ref sig .tc := ⟨.hbm, 1845, rfl⟩
abbrev main_v1608 : Ref sig .tc := ⟨.hbm, 1846, rfl⟩
abbrev main_v1609 : Ref sig .tc := ⟨.hbm, 1847, rfl⟩
abbrev main_v1610 : Ref sig .tc := ⟨.hbm, 1848, rfl⟩
abbrev main_v1611 : Ref sig .tc := ⟨.hbm, 1849, rfl⟩
abbrev main_v1612 : Ref sig .tc := ⟨.hbm, 1850, rfl⟩
abbrev main_v1613 : Ref sig .tc := ⟨.hbm, 1851, rfl⟩
abbrev main_v1614 : Ref sig .tc := ⟨.hbm, 1852, rfl⟩
abbrev main_v1615 : Ref sig .tc := ⟨.hbm, 1853, rfl⟩
abbrev main_v1616 : Ref sig .tc := ⟨.hbm, 1854, rfl⟩
abbrev main_v1617 : Ref sig .tc := ⟨.hbm, 1855, rfl⟩
abbrev main_v1618 : Ref sig .tc := ⟨.hbm, 1856, rfl⟩
abbrev main_v1619 : Ref sig .tc := ⟨.hbm, 1857, rfl⟩
abbrev main_cst_233 : Ref sig .tc := ⟨.hbm, 1858, rfl⟩
abbrev main_v1620 : Ref sig .tc := ⟨.hbm, 1859, rfl⟩
abbrev main_v1621 : Ref sig .tc := ⟨.hbm, 1860, rfl⟩
abbrev main_cst_234 : Ref sig .tc := ⟨.hbm, 1861, rfl⟩
abbrev main_v1622 : Ref sig .tc := ⟨.hbm, 1862, rfl⟩
abbrev main_v1623 : Ref sig .tc := ⟨.hbm, 1863, rfl⟩
abbrev main_v1624 : Ref sig .tc := ⟨.hbm, 1864, rfl⟩
abbrev main_v1625 : Ref sig .tc := ⟨.hbm, 1865, rfl⟩
abbrev main_v1626 : Ref sig .tc := ⟨.hbm, 1866, rfl⟩
abbrev main_v1627 : Ref sig .tc := ⟨.hbm, 1867, rfl⟩
abbrev main_v1628 : Ref sig .tc := ⟨.hbm, 1868, rfl⟩
abbrev main_v1629 : Ref sig .tc := ⟨.hbm, 1869, rfl⟩
abbrev main_v1630 : Ref sig .tc := ⟨.hbm, 1870, rfl⟩
abbrev main_v1631 : Ref sig .tc := ⟨.hbm, 1871, rfl⟩
abbrev main_v1632 : Ref sig .tc := ⟨.hbm, 1872, rfl⟩
abbrev main_v1633 : Ref sig .tc := ⟨.hbm, 1873, rfl⟩
abbrev main_cst_235 : Ref sig .tc := ⟨.hbm, 1874, rfl⟩
abbrev main_v1634 : Ref sig .tc := ⟨.hbm, 1875, rfl⟩
abbrev main_v1635 : Ref sig .tc := ⟨.hbm, 1876, rfl⟩
abbrev main_cst_236 : Ref sig .tc := ⟨.hbm, 1877, rfl⟩
abbrev main_v1636 : Ref sig .tc := ⟨.hbm, 1878, rfl⟩
abbrev main_v1637 : Ref sig .tc := ⟨.hbm, 1879, rfl⟩
abbrev main_v1638 : Ref sig .tc := ⟨.hbm, 1880, rfl⟩
abbrev main_v1639 : Ref sig .tc := ⟨.hbm, 1881, rfl⟩
abbrev main_v1640 : Ref sig .tc := ⟨.hbm, 1882, rfl⟩
abbrev main_v1641 : Ref sig .tc := ⟨.hbm, 1883, rfl⟩
abbrev main_v1642 : Ref sig .tc := ⟨.hbm, 1884, rfl⟩
abbrev main_v1643 : Ref sig .tc := ⟨.hbm, 1885, rfl⟩
abbrev main_v1644 : Ref sig .tc := ⟨.hbm, 1886, rfl⟩
abbrev main_v1645 : Ref sig .tc := ⟨.hbm, 1887, rfl⟩
abbrev main_v1646 : Ref sig .tc := ⟨.hbm, 1888, rfl⟩
abbrev main_v1647 : Ref sig .tc := ⟨.hbm, 1889, rfl⟩
abbrev main_cst_237 : Ref sig .tc := ⟨.hbm, 1890, rfl⟩
abbrev main_v1648 : Ref sig .tc := ⟨.hbm, 1891, rfl⟩
abbrev main_v1649 : Ref sig .tc := ⟨.hbm, 1892, rfl⟩
abbrev main_cst_238 : Ref sig .tc := ⟨.hbm, 1893, rfl⟩
abbrev main_v1650 : Ref sig .tc := ⟨.hbm, 1894, rfl⟩
abbrev main_v1651 : Ref sig .tc := ⟨.hbm, 1895, rfl⟩
abbrev main_v1652 : Ref sig .tc := ⟨.hbm, 1896, rfl⟩
abbrev main_v1653 : Ref sig .tc := ⟨.hbm, 1897, rfl⟩
abbrev main_v1654 : Ref sig .tc := ⟨.hbm, 1898, rfl⟩
abbrev main_v1655 : Ref sig .tc := ⟨.hbm, 1899, rfl⟩
abbrev main_v1656 : Ref sig .tc := ⟨.hbm, 1900, rfl⟩
abbrev main_v1657 : Ref sig .tc := ⟨.hbm, 1901, rfl⟩
abbrev main_v1658 : Ref sig .tc := ⟨.hbm, 1902, rfl⟩
abbrev main_v1659 : Ref sig .tc := ⟨.hbm, 1903, rfl⟩
abbrev main_v1660 : Ref sig .tc := ⟨.hbm, 1904, rfl⟩
abbrev main_v1661 : Ref sig .tc := ⟨.hbm, 1905, rfl⟩
abbrev main_cst_239 : Ref sig .tc := ⟨.hbm, 1906, rfl⟩
abbrev main_v1662 : Ref sig .tc := ⟨.hbm, 1907, rfl⟩
abbrev main_v1663 : Ref sig .tc := ⟨.hbm, 1908, rfl⟩
abbrev main_cst_240 : Ref sig .tc := ⟨.hbm, 1909, rfl⟩
abbrev main_v1664 : Ref sig .tc := ⟨.hbm, 1910, rfl⟩
abbrev main_v1665 : Ref sig .tc := ⟨.hbm, 1911, rfl⟩
abbrev main_v1666 : Ref sig .tc := ⟨.hbm, 1912, rfl⟩
abbrev main_v1667 : Ref sig .tc := ⟨.hbm, 1913, rfl⟩
abbrev main_v1668 : Ref sig .tc := ⟨.hbm, 1914, rfl⟩
abbrev main_v1669 : Ref sig .tc := ⟨.hbm, 1915, rfl⟩
abbrev main_v1670 : Ref sig .tc := ⟨.hbm, 1916, rfl⟩
abbrev main_v1671 : Ref sig .tc := ⟨.hbm, 1917, rfl⟩
abbrev main_v1672 : Ref sig .tc := ⟨.hbm, 1918, rfl⟩
abbrev main_v1673 : Ref sig .tc := ⟨.hbm, 1919, rfl⟩
abbrev main_v1674 : Ref sig .tc := ⟨.hbm, 1920, rfl⟩
abbrev main_v1675 : Ref sig .tc := ⟨.hbm, 1921, rfl⟩
abbrev main_cst_241 : Ref sig .tc := ⟨.hbm, 1922, rfl⟩
abbrev main_v1676 : Ref sig .tc := ⟨.hbm, 1923, rfl⟩
abbrev main_v1677 : Ref sig .tc := ⟨.hbm, 1924, rfl⟩
abbrev main_cst_242 : Ref sig .tc := ⟨.hbm, 1925, rfl⟩
abbrev main_v1678 : Ref sig .tc := ⟨.hbm, 1926, rfl⟩
abbrev main_v1679 : Ref sig .tc := ⟨.hbm, 1927, rfl⟩
abbrev main_v1680 : Ref sig .tc := ⟨.hbm, 1928, rfl⟩
abbrev main_v1681 : Ref sig .tc := ⟨.hbm, 1929, rfl⟩
abbrev main_v1682 : Ref sig .tc := ⟨.hbm, 1930, rfl⟩
abbrev main_v1683 : Ref sig .tc := ⟨.hbm, 1931, rfl⟩
abbrev main_v1684 : Ref sig .tc := ⟨.hbm, 1932, rfl⟩
abbrev main_v1685 : Ref sig .tc := ⟨.hbm, 1933, rfl⟩
abbrev main_v1686 : Ref sig .tc := ⟨.hbm, 1934, rfl⟩
abbrev main_v1687 : Ref sig .tc := ⟨.hbm, 1935, rfl⟩
abbrev main_v1688 : Ref sig .tc := ⟨.hbm, 1936, rfl⟩
abbrev main_v1689 : Ref sig .tc := ⟨.hbm, 1937, rfl⟩
abbrev main_cst_243 : Ref sig .tc := ⟨.hbm, 1938, rfl⟩
abbrev main_v1690 : Ref sig .tc := ⟨.hbm, 1939, rfl⟩
abbrev main_v1691 : Ref sig .tc := ⟨.hbm, 1940, rfl⟩
abbrev main_cst_244 : Ref sig .tc := ⟨.hbm, 1941, rfl⟩
abbrev main_v1692 : Ref sig .tc := ⟨.hbm, 1942, rfl⟩
abbrev main_v1693 : Ref sig .tc := ⟨.hbm, 1943, rfl⟩
abbrev main_v1694 : Ref sig .tc := ⟨.hbm, 1944, rfl⟩
abbrev main_v1695 : Ref sig .tc := ⟨.hbm, 1945, rfl⟩
abbrev main_v1696 : Ref sig .tc := ⟨.hbm, 1946, rfl⟩
abbrev main_v1697 : Ref sig .tc := ⟨.hbm, 1947, rfl⟩
abbrev main_v1698 : Ref sig .tc := ⟨.hbm, 1948, rfl⟩
abbrev main_v1699 : Ref sig .tc := ⟨.hbm, 1949, rfl⟩
abbrev main_v1700 : Ref sig .tc := ⟨.hbm, 1950, rfl⟩
abbrev main_v1701 : Ref sig .tc := ⟨.hbm, 1951, rfl⟩
abbrev main_v1702 : Ref sig .tc := ⟨.hbm, 1952, rfl⟩
abbrev main_v1703 : Ref sig .tc := ⟨.hbm, 1953, rfl⟩
abbrev main_cst_245 : Ref sig .tc := ⟨.hbm, 1954, rfl⟩
abbrev main_v1704 : Ref sig .tc := ⟨.hbm, 1955, rfl⟩
abbrev main_v1705 : Ref sig .tc := ⟨.hbm, 1956, rfl⟩
abbrev main_cst_246 : Ref sig .tc := ⟨.hbm, 1957, rfl⟩
abbrev main_v1706 : Ref sig .tc := ⟨.hbm, 1958, rfl⟩
abbrev main_v1707 : Ref sig .tc := ⟨.hbm, 1959, rfl⟩
abbrev main_v1708 : Ref sig .tc := ⟨.hbm, 1960, rfl⟩
abbrev main_v1709 : Ref sig .tc := ⟨.hbm, 1961, rfl⟩
abbrev main_v1710 : Ref sig .tc := ⟨.hbm, 1962, rfl⟩
abbrev main_v1711 : Ref sig .tc := ⟨.hbm, 1963, rfl⟩
abbrev main_cst_247 : Ref sig .tc := ⟨.hbm, 1964, rfl⟩
abbrev main_v1712 : Ref sig .tc := ⟨.hbm, 1965, rfl⟩
abbrev main_cst_248 : Ref sig .tc := ⟨.hbm, 1966, rfl⟩
abbrev main_v1713 : Ref sig .tc := ⟨.hbm, 1967, rfl⟩
abbrev main_cst_249 : Ref sig .tc := ⟨.hbm, 1968, rfl⟩
abbrev main_v1714 : Ref sig .tc := ⟨.hbm, 1969, rfl⟩
abbrev main_v1715 : Ref sig .tc := ⟨.hbm, 1970, rfl⟩

abbrev nD : Nat := 1
abbrev τ : Topo := Topo.v7x

variable {F : FTy → Type} [FloatOps F]

class Facts₀ : Prop where
  bcast_S_S8x1x352x352 : S_.BroadcastsInDim S8x1x352x352 (![] : Fin 0 → Fin S8x1x352x352.rank)
  bcast_S_S_ : S_.BroadcastsInDim S_ (![] : Fin 0 → Fin S_.rank)
  reduceWindows_S8x1x352x352_S8x1x352x352_w1s1p0_0_w1s1p0_0_w5s1p2_2_w5s1p2_2 : S8x1x352x352.ReduceWindows (![1, 1, 5, 5] : Fin 4 → Nat) ![1, 1, 1, 1] ![0, 0, 2, 2] ![0, 0, 2, 2] S8x1x352x352
  h_S_ : 0 < S_.numel
  concatenates_S8x3x352x352_S8x1x352x352_S8x4x352x352_d1 : Shape.Concatenates [S8x3x352x352, S8x1x352x352] S8x4x352x352 1
  pads_S8x4x352x352_S8x4x362x362_000_000_550_550 : S8x4x352x352.Pads (![0, 0, 5, 5] : Fin 4 → Nat) ![0, 0, 5, 5] ![0, 0, 0, 0] S8x4x362x362
  slices_S8x4x352x352_S8x3x352x352_0_0_0_0 : S8x4x352x352.Slices ![0, 0, 0, 0] S8x3x352x352
  slices_S8x4x352x352_S8x1x352x352_0_3_0_0 : S8x4x352x352.Slices ![0, 3, 0, 0] S8x1x352x352
  slices_S8x4x362x362_S8x4x352x352_0_0_0_0 : S8x4x362x362.Slices ![0, 0, 0, 0] S8x4x352x352
  reducesTo_S8x3x352x352_S8x352x352_d1 : S8x3x352x352.ReducesTo [1] S8x352x352
  bcast_S8x352x352_S8x1x352x352_0_2_3 : S8x352x352.BroadcastsInDim S8x1x352x352 (![0, 2, 3] : Fin 3 → Fin S8x1x352x352.rank)
  slices_S8x4x362x362_S8x4x352x352_0_0_0_1 : S8x4x362x362.Slices ![0, 0, 0, 1] S8x4x352x352
  slices_S8x4x362x362_S8x4x352x352_0_0_0_2 : S8x4x362x362.Slices ![0, 0, 0, 2] S8x4x352x352
  slices_S8x4x362x362_S8x4x352x352_0_0_0_3 : S8x4x362x362.Slices ![0, 0, 0, 3] S8x4x352x352
  slices_S8x4x362x362_S8x4x352x352_0_0_0_4 : S8x4x362x362.Slices ![0, 0, 0, 4] S8x4x352x352
  slices_S8x4x362x362_S8x4x352x352_0_0_0_5 : S8x4x362x362.Slices ![0, 0, 0, 5] S8x4x352x352
  slices_S8x4x362x362_S8x4x352x352_0_0_0_6 : S8x4x362x362.Slices ![0, 0, 0, 6] S8x4x352x352
  slices_S8x4x362x362_S8x4x352x352_0_0_0_7 : S8x4x362x362.Slices ![0, 0, 0, 7] S8x4x352x352
  slices_S8x4x362x362_S8x4x352x352_0_0_0_8 : S8x4x362x362.Slices ![0, 0, 0, 8] S8x4x352x352
  slices_S8x4x362x362_S8x4x352x352_0_0_0_9 : S8x4x362x362.Slices ![0, 0, 0, 9] S8x4x352x352
  slices_S8x4x362x362_S8x4x352x352_0_0_0_10 : S8x4x362x362.Slices ![0, 0, 0, 10] S8x4x352x352
  slices_S8x4x362x362_S8x4x352x352_0_0_1_0 : S8x4x362x362.Slices ![0, 0, 1, 0] S8x4x352x352
  slices_S8x4x362x362_S8x4x352x352_0_0_1_1 : S8x4x362x362.Slices ![0, 0, 1, 1] S8x4x352x352
  slices_S8x4x362x362_S8x4x352x352_0_0_1_2 : S8x4x362x362.Slices ![0, 0, 1, 2] S8x4x352x352
  slices_S8x4x362x362_S8x4x352x352_0_0_1_3 : S8x4x362x362.Slices ![0, 0, 1, 3] S8x4x352x352
  slices_S8x4x362x362_S8x4x352x352_0_0_1_4 : S8x4x362x362.Slices ![0, 0, 1, 4] S8x4x352x352
  slices_S8x4x362x362_S8x4x352x352_0_0_1_5 : S8x4x362x362.Slices ![0, 0, 1, 5] S8x4x352x352
  slices_S8x4x362x362_S8x4x352x352_0_0_1_6 : S8x4x362x362.Slices ![0, 0, 1, 6] S8x4x352x352
  slices_S8x4x362x362_S8x4x352x352_0_0_1_7 : S8x4x362x362.Slices ![0, 0, 1, 7] S8x4x352x352
  slices_S8x4x362x362_S8x4x352x352_0_0_1_8 : S8x4x362x362.Slices ![0, 0, 1, 8] S8x4x352x352
  slices_S8x4x362x362_S8x4x352x352_0_0_1_9 : S8x4x362x362.Slices ![0, 0, 1, 9] S8x4x352x352
  slices_S8x4x362x362_S8x4x352x352_0_0_1_10 : S8x4x362x362.Slices ![0, 0, 1, 10] S8x4x352x352
  slices_S8x4x362x362_S8x4x352x352_0_0_2_0 : S8x4x362x362.Slices ![0, 0, 2, 0] S8x4x352x352
  slices_S8x4x362x362_S8x4x352x352_0_0_2_1 : S8x4x362x362.Slices ![0, 0, 2, 1] S8x4x352x352
  slices_S8x4x362x362_S8x4x352x352_0_0_2_2 : S8x4x362x362.Slices ![0, 0, 2, 2] S8x4x352x352
  slices_S8x4x362x362_S8x4x352x352_0_0_2_3 : S8x4x362x362.Slices ![0, 0, 2, 3] S8x4x352x352
  slices_S8x4x362x362_S8x4x352x352_0_0_2_4 : S8x4x362x362.Slices ![0, 0, 2, 4] S8x4x352x352
  slices_S8x4x362x362_S8x4x352x352_0_0_2_5 : S8x4x362x362.Slices ![0, 0, 2, 5] S8x4x352x352
  slices_S8x4x362x362_S8x4x352x352_0_0_2_6 : S8x4x362x362.Slices ![0, 0, 2, 6] S8x4x352x352
  slices_S8x4x362x362_S8x4x352x352_0_0_2_7 : S8x4x362x362.Slices ![0, 0, 2, 7] S8x4x352x352
  slices_S8x4x362x362_S8x4x352x352_0_0_2_8 : S8x4x362x362.Slices ![0, 0, 2, 8] S8x4x352x352
  slices_S8x4x362x362_S8x4x352x352_0_0_2_9 : S8x4x362x362.Slices ![0, 0, 2, 9] S8x4x352x352
  slices_S8x4x362x362_S8x4x352x352_0_0_2_10 : S8x4x362x362.Slices ![0, 0, 2, 10] S8x4x352x352
  slices_S8x4x362x362_S8x4x352x352_0_0_3_0 : S8x4x362x362.Slices ![0, 0, 3, 0] S8x4x352x352
  slices_S8x4x362x362_S8x4x352x352_0_0_3_1 : S8x4x362x362.Slices ![0, 0, 3, 1] S8x4x352x352
  slices_S8x4x362x362_S8x4x352x352_0_0_3_2 : S8x4x362x362.Slices ![0, 0, 3, 2] S8x4x352x352
  slices_S8x4x362x362_S8x4x352x352_0_0_3_3 : S8x4x362x362.Slices ![0, 0, 3, 3] S8x4x352x352
  slices_S8x4x362x362_S8x4x352x352_0_0_3_4 : S8x4x362x362.Slices ![0, 0, 3, 4] S8x4x352x352
  slices_S8x4x362x362_S8x4x352x352_0_0_3_5 : S8x4x362x362.Slices ![0, 0, 3, 5] S8x4x352x352
  slices_S8x4x362x362_S8x4x352x352_0_0_3_6 : S8x4x362x362.Slices ![0, 0, 3, 6] S8x4x352x352
  slices_S8x4x362x362_S8x4x352x352_0_0_3_7 : S8x4x362x362.Slices ![0, 0, 3, 7] S8x4x352x352
  slices_S8x4x362x362_S8x4x352x352_0_0_3_8 : S8x4x362x362.Slices ![0, 0, 3, 8] S8x4x352x352
  slices_S8x4x362x362_S8x4x352x352_0_0_3_9 : S8x4x362x362.Slices ![0, 0, 3, 9] S8x4x352x352
  slices_S8x4x362x362_S8x4x352x352_0_0_3_10 : S8x4x362x362.Slices ![0, 0, 3, 10] S8x4x352x352
  slices_S8x4x362x362_S8x4x352x352_0_0_4_0 : S8x4x362x362.Slices ![0, 0, 4, 0] S8x4x352x352
  slices_S8x4x362x362_S8x4x352x352_0_0_4_1 : S8x4x362x362.Slices ![0, 0, 4, 1] S8x4x352x352
  slices_S8x4x362x362_S8x4x352x352_0_0_4_2 : S8x4x362x362.Slices ![0, 0, 4, 2] S8x4x352x352
  slices_S8x4x362x362_S8x4x352x352_0_0_4_3 : S8x4x362x362.Slices ![0, 0, 4, 3] S8x4x352x352
  slices_S8x4x362x362_S8x4x352x352_0_0_4_4 : S8x4x362x362.Slices ![0, 0, 4, 4] S8x4x352x352
  slices_S8x4x362x362_S8x4x352x352_0_0_4_5 : S8x4x362x362.Slices ![0, 0, 4, 5] S8x4x352x352
  slices_S8x4x362x362_S8x4x352x352_0_0_4_6 : S8x4x362x362.Slices ![0, 0, 4, 6] S8x4x352x352
  slices_S8x4x362x362_S8x4x352x352_0_0_4_7 : S8x4x362x362.Slices ![0, 0, 4, 7] S8x4x352x352
  slices_S8x4x362x362_S8x4x352x352_0_0_4_8 : S8x4x362x362.Slices ![0, 0, 4, 8] S8x4x352x352
  slices_S8x4x362x362_S8x4x352x352_0_0_4_9 : S8x4x362x362.Slices ![0, 0, 4, 9] S8x4x352x352
  slices_S8x4x362x362_S8x4x352x352_0_0_4_10 : S8x4x362x362.Slices ![0, 0, 4, 10] S8x4x352x352
  slices_S8x4x362x362_S8x4x352x352_0_0_5_0 : S8x4x362x362.Slices ![0, 0, 5, 0] S8x4x352x352
  slices_S8x4x362x362_S8x4x352x352_0_0_5_1 : S8x4x362x362.Slices ![0, 0, 5, 1] S8x4x352x352
  slices_S8x4x362x362_S8x4x352x352_0_0_5_2 : S8x4x362x362.Slices ![0, 0, 5, 2] S8x4x352x352
  slices_S8x4x362x362_S8x4x352x352_0_0_5_3 : S8x4x362x362.Slices ![0, 0, 5, 3] S8x4x352x352
  slices_S8x4x362x362_S8x4x352x352_0_0_5_4 : S8x4x362x362.Slices ![0, 0, 5, 4] S8x4x352x352
  slices_S8x4x362x362_S8x4x352x352_0_0_5_5 : S8x4x362x362.Slices ![0, 0, 5, 5] S8x4x352x352
  slices_S8x4x362x362_S8x4x352x352_0_0_5_6 : S8x4x362x362.Slices ![0, 0, 5, 6] S8x4x352x352
  slices_S8x4x362x362_S8x4x352x352_0_0_5_7 : S8x4x362x362.Slices ![0, 0, 5, 7] S8x4x352x352
  slices_S8x4x362x362_S8x4x352x352_0_0_5_8 : S8x4x362x362.Slices ![0, 0, 5, 8] S8x4x352x352
  slices_S8x4x362x362_S8x4x352x352_0_0_5_9 : S8x4x362x362.Slices ![0, 0, 5, 9] S8x4x352x352
  slices_S8x4x362x362_S8x4x352x352_0_0_5_10 : S8x4x362x362.Slices ![0, 0, 5, 10] S8x4x352x352
  slices_S8x4x362x362_S8x4x352x352_0_0_6_0 : S8x4x362x362.Slices ![0, 0, 6, 0] S8x4x352x352
  slices_S8x4x362x362_S8x4x352x352_0_0_6_1 : S8x4x362x362.Slices ![0, 0, 6, 1] S8x4x352x352
  slices_S8x4x362x362_S8x4x352x352_0_0_6_2 : S8x4x362x362.Slices ![0, 0, 6, 2] S8x4x352x352
  slices_S8x4x362x362_S8x4x352x352_0_0_6_3 : S8x4x362x362.Slices ![0, 0, 6, 3] S8x4x352x352
  slices_S8x4x362x362_S8x4x352x352_0_0_6_4 : S8x4x362x362.Slices ![0, 0, 6, 4] S8x4x352x352
  slices_S8x4x362x362_S8x4x352x352_0_0_6_5 : S8x4x362x362.Slices ![0, 0, 6, 5] S8x4x352x352
  slices_S8x4x362x362_S8x4x352x352_0_0_6_6 : S8x4x362x362.Slices ![0, 0, 6, 6] S8x4x352x352
  slices_S8x4x362x362_S8x4x352x352_0_0_6_7 : S8x4x362x362.Slices ![0, 0, 6, 7] S8x4x352x352
  slices_S8x4x362x362_S8x4x352x352_0_0_6_8 : S8x4x362x362.Slices ![0, 0, 6, 8] S8x4x352x352
  slices_S8x4x362x362_S8x4x352x352_0_0_6_9 : S8x4x362x362.Slices ![0, 0, 6, 9] S8x4x352x352
  slices_S8x4x362x362_S8x4x352x352_0_0_6_10 : S8x4x362x362.Slices ![0, 0, 6, 10] S8x4x352x352
  slices_S8x4x362x362_S8x4x352x352_0_0_7_0 : S8x4x362x362.Slices ![0, 0, 7, 0] S8x4x352x352
  slices_S8x4x362x362_S8x4x352x352_0_0_7_1 : S8x4x362x362.Slices ![0, 0, 7, 1] S8x4x352x352
  slices_S8x4x362x362_S8x4x352x352_0_0_7_2 : S8x4x362x362.Slices ![0, 0, 7, 2] S8x4x352x352
  slices_S8x4x362x362_S8x4x352x352_0_0_7_3 : S8x4x362x362.Slices ![0, 0, 7, 3] S8x4x352x352
  slices_S8x4x362x362_S8x4x352x352_0_0_7_4 : S8x4x362x362.Slices ![0, 0, 7, 4] S8x4x352x352
  slices_S8x4x362x362_S8x4x352x352_0_0_7_5 : S8x4x362x362.Slices ![0, 0, 7, 5] S8x4x352x352
  slices_S8x4x362x362_S8x4x352x352_0_0_7_6 : S8x4x362x362.Slices ![0, 0, 7, 6] S8x4x352x352
  slices_S8x4x362x362_S8x4x352x352_0_0_7_7 : S8x4x362x362.Slices ![0, 0, 7, 7] S8x4x352x352
  slices_S8x4x362x362_S8x4x352x352_0_0_7_8 : S8x4x362x362.Slices ![0, 0, 7, 8] S8x4x352x352
  slices_S8x4x362x362_S8x4x352x352_0_0_7_9 : S8x4x362x362.Slices ![0, 0, 7, 9] S8x4x352x352
  slices_S8x4x362x362_S8x4x352x352_0_0_7_10 : S8x4x362x362.Slices ![0, 0, 7, 10] S8x4x352x352
  slices_S8x4x362x362_S8x4x352x352_0_0_8_0 : S8x4x362x362.Slices ![0, 0, 8, 0] S8x4x352x352
  slices_S8x4x362x362_S8x4x352x352_0_0_8_1 : S8x4x362x362.Slices ![0, 0, 8, 1] S8x4x352x352
  slices_S8x4x362x362_S8x4x352x352_0_0_8_2 : S8x4x362x362.Slices ![0, 0, 8, 2] S8x4x352x352
  slices_S8x4x362x362_S8x4x352x352_0_0_8_3 : S8x4x362x362.Slices ![0, 0, 8, 3] S8x4x352x352
  slices_S8x4x362x362_S8x4x352x352_0_0_8_4 : S8x4x362x362.Slices ![0, 0, 8, 4] S8x4x352x352
  slices_S8x4x362x362_S8x4x352x352_0_0_8_5 : S8x4x362x362.Slices ![0, 0, 8, 5] S8x4x352x352
  slices_S8x4x362x362_S8x4x352x352_0_0_8_6 : S8x4x362x362.Slices ![0, 0, 8, 6] S8x4x352x352
  slices_S8x4x362x362_S8x4x352x352_0_0_8_7 : S8x4x362x362.Slices ![0, 0, 8, 7] S8x4x352x352
  slices_S8x4x362x362_S8x4x352x352_0_0_8_8 : S8x4x362x362.Slices ![0, 0, 8, 8] S8x4x352x352
  slices_S8x4x362x362_S8x4x352x352_0_0_8_9 : S8x4x362x362.Slices ![0, 0, 8, 9] S8x4x352x352
  slices_S8x4x362x362_S8x4x352x352_0_0_8_10 : S8x4x362x362.Slices ![0, 0, 8, 10] S8x4x352x352
  slices_S8x4x362x362_S8x4x352x352_0_0_9_0 : S8x4x362x362.Slices ![0, 0, 9, 0] S8x4x352x352
  slices_S8x4x362x362_S8x4x352x352_0_0_9_1 : S8x4x362x362.Slices ![0, 0, 9, 1] S8x4x352x352
  slices_S8x4x362x362_S8x4x352x352_0_0_9_2 : S8x4x362x362.Slices ![0, 0, 9, 2] S8x4x352x352
  slices_S8x4x362x362_S8x4x352x352_0_0_9_3 : S8x4x362x362.Slices ![0, 0, 9, 3] S8x4x352x352
  slices_S8x4x362x362_S8x4x352x352_0_0_9_4 : S8x4x362x362.Slices ![0, 0, 9, 4] S8x4x352x352
  slices_S8x4x362x362_S8x4x352x352_0_0_9_5 : S8x4x362x362.Slices ![0, 0, 9, 5] S8x4x352x352
  slices_S8x4x362x362_S8x4x352x352_0_0_9_6 : S8x4x362x362.Slices ![0, 0, 9, 6] S8x4x352x352
  slices_S8x4x362x362_S8x4x352x352_0_0_9_7 : S8x4x362x362.Slices ![0, 0, 9, 7] S8x4x352x352
  slices_S8x4x362x362_S8x4x352x352_0_0_9_8 : S8x4x362x362.Slices ![0, 0, 9, 8] S8x4x352x352
  slices_S8x4x362x362_S8x4x352x352_0_0_9_9 : S8x4x362x362.Slices ![0, 0, 9, 9] S8x4x352x352
  slices_S8x4x362x362_S8x4x352x352_0_0_9_10 : S8x4x362x362.Slices ![0, 0, 9, 10] S8x4x352x352
  slices_S8x4x362x362_S8x4x352x352_0_0_10_0 : S8x4x362x362.Slices ![0, 0, 10, 0] S8x4x352x352
  slices_S8x4x362x362_S8x4x352x352_0_0_10_1 : S8x4x362x362.Slices ![0, 0, 10, 1] S8x4x352x352
  slices_S8x4x362x362_S8x4x352x352_0_0_10_2 : S8x4x362x362.Slices ![0, 0, 10, 2] S8x4x352x352
  slices_S8x4x362x362_S8x4x352x352_0_0_10_3 : S8x4x362x362.Slices ![0, 0, 10, 3] S8x4x352x352
  slices_S8x4x362x362_S8x4x352x352_0_0_10_4 : S8x4x362x362.Slices ![0, 0, 10, 4] S8x4x352x352
  slices_S8x4x362x362_S8x4x352x352_0_0_10_5 : S8x4x362x362.Slices ![0, 0, 10, 5] S8x4x352x352
  slices_S8x4x362x362_S8x4x352x352_0_0_10_6 : S8x4x362x362.Slices ![0, 0, 10, 6] S8x4x352x352
  slices_S8x4x362x362_S8x4x352x352_0_0_10_7 : S8x4x362x362.Slices ![0, 0, 10, 7] S8x4x352x352
  slices_S8x4x362x362_S8x4x352x352_0_0_10_8 : S8x4x362x362.Slices ![0, 0, 10, 8] S8x4x352x352
  slices_S8x4x362x362_S8x4x352x352_0_0_10_9 : S8x4x362x362.Slices ![0, 0, 10, 9] S8x4x352x352
  slices_S8x4x362x362_S8x4x352x352_0_0_10_10 : S8x4x362x362.Slices ![0, 0, 10, 10] S8x4x352x352
  reducesTo_S8x1x352x352_S_d0_1_2_3 : S8x1x352x352.ReducesTo [0, 1, 2, 3] S_

variable [Facts₀]

class Facts : Prop extends Facts₀ where

variable [Facts]
-- ==== Proof.ShiftTerm.lean ====
import Idealize.ShloMosaic.PureOps.Ideal
import Idealize.ShloMosaic.Lib.ValueIdx

noncomputable section

namespace Cert.Contour

open Idealize.ShloMosaic Idealize.ShloMosaic.ValueIdx

/-- One shift's term at pixel `(h, w)`: `exp(-200 * squared colour distance) * |saliency difference|` to the pixel `(dy - 5, dx - 5)` away, over a reader `r channel row column` of the padded image. -/
def shiftTerm (r : ℕ → ℕ → ℕ → EReal) (h w dy dx : ℕ) : EReal :=
  Ideal.exp (Ideal.ofBits .f32 0xC3480000#32 *
      ∑ k : Fin 3, (r k.val (h + dy) (w + dx) - r k.val (h + 5) (w + 5)) * (r k.val (h + dy) (w + dx) - r k.val (h + 5) (w + 5)))
    * max (r 3 (h + dy) (w + dx) - r 3 (h + 5) (w + 5)) (-(r 3 (h + dy) (w + dx) - r 3 (h + 5) (w + 5)))

/-- The loss map at `(h, w)` after the first `k` shifts, shift number `k` being `(k / 11, k % 11)`, from the f32 zero. -/
def lossUpTo (r : ℕ → ℕ → ℕ → EReal) (h w : ℕ) : ℕ → EReal
  | 0 => Ideal.ofBits .f32 0x00000000#32
  | k + 1 => lossUpTo r h w k + shiftTerm r h w (k / 11) (k % 11)

/-- The mask-weighted sum of the loss map over every pixel of every image, over the mask's sum plus the f32 nearest `1e-6`. -/
def contour (L M : Fin 8 → Fin 352 → Fin 352 → EReal) : EReal :=
  Ideal.div (∑ n : Fin 8, ∑ h : Fin 352, ∑ w : Fin 352, L n h w * M n h w)
    ((∑ n : Fin 8, ∑ h : Fin 352, ∑ w : Fin 352, M n h w) + Ideal.ofBits .f32 0x358637BD#32)

/-- A padded image read at natural-number coordinates. -/
def read3 (v : (⟨3, ![4, 362, 362]⟩ : Shape).Idx → EReal) (c y x : ℕ) : EReal :=
  if hh : c < 4 ∧ y < 362 ∧ x < 362 then v (ix3 ⟨c, hh.1⟩ ⟨y, hh.2.1⟩ ⟨x, hh.2.2⟩) else 0

/-- Image `n` of the padded array read at natural-number coordinates. -/
def read4 (P : (⟨4, ![8, 4, 362, 362]⟩ : Shape).Idx → EReal) (n : Fin 8) (c y x : ℕ) : EReal :=
  if hh : c < 4 ∧ y < 362 ∧ x < 362 then P (ix4 n ⟨c, hh.1⟩ ⟨y, hh.2.1⟩ ⟨x, hh.2.2⟩) else 0

theorem read3_of_idx (v : (⟨3, ![4, 362, 362]⟩ : Shape).Idx → EReal) (k : (⟨3, ![4, 362, 362]⟩ : Shape).Idx) (c y x : ℕ)
    (h0 : (k 0).val = c) (h1 : (k 1).val = y) (h2 : (k 2).val = x) : v k = read3 v c y x := by
  subst h0 h1 h2
  unfold read3
  rw [dif_pos ⟨(k 0).isLt, (k 1).isLt, (k 2).isLt⟩]
  exact congrArg v (eq_ix3 k)

theorem read4_of_idx (P : (⟨4, ![8, 4, 362, 362]⟩ : Shape).Idx → EReal) (n : Fin 8) (k : (⟨4, ![8, 4, 362, 362]⟩ : Shape).Idx) (c y x : ℕ)
    (hn : k 0 = n) (h0 : (k 1).val = c) (h1 : (k 2).val = y) (h2 : (k 3).val = x) : P k = read4 P n c y x := by
  subst hn h0 h1 h2
  unfold read4
  rw [dif_pos ⟨(k 1).isLt, (k 2).isLt, (k 3).isLt⟩]
  exact congrArg P (eq_ix4 k)

end Cert.Contour

end
-- ==== Proof.KernelShift.lean ====
import proofs.«145020_j56358560858814_1_alg».proof.KernelIdeal
import proofs.«145020_j56358560858814_1_alg».proof.Proof.ShiftTerm
import Idealize.ShloMosaic.Lib.Pipeline.Value
import Idealize.ShloMosaic.PureOps.Ideal.Laws

noncomputable section

namespace Cert.KernelIdeal.Shift

open Idealize.ShloMosaic Idealize.ShloMosaic.ValueIdx Cert.KernelIdeal Cert.Contour

/-- A window of the image block, then its colour channels: the block at the shifted coordinates. -/
theorem window_rgb (v1 : FVec Ideal S4x362x362 .f32) (dy dx : ℕ)
    (hs : S4x362x362.Slices ![0, dy, dx] S4x352x352) (hc : S4x352x352.Slices ![0, 0, 0] S3x352x352) (k : Fin 3) (h w : Fin 352) :
    extractStridedSlice S3x352x352 ![0, 0, 0] (extractStridedSlice S4x352x352 ![0, dy, dx] v1 hs) hc (ix3 k h w)
      = read3 v1 k.val (h.val + dy) (w.val + dx) := by
  unfold extractStridedSlice
  refine read3_of_idx v1 _ _ _ _ ?_ ?_ ?_
  · show 0 + (0 + k.val) = _; omega
  · show dy + (0 + h.val) = _; omega
  · show dx + (0 + w.val) = _; omega

theorem window_sal (v1 : FVec Ideal S4x362x362 .f32) (dy dx : ℕ)
    (hs : S4x362x362.Slices ![0, dy, dx] S4x352x352) (hc : S4x352x352.Slices ![3, 0, 0] S1x352x352) (h w : Fin 352) :
    extractStridedSlice S1x352x352 ![3, 0, 0] (extractStridedSlice S4x352x352 ![0, dy, dx] v1 hs) hc (ix3 0 h w)
      = read3 v1 3 (h.val + dy) (w.val + dx) := by
  unfold extractStridedSlice
  refine read3_of_idx v1 _ _ _ _ ?_ ?_ ?_
  · show 0 + (3 + 0) = _; omega
  · show dy + (0 + h.val) = _; omega
  · show dx + (0 + w.val) = _; omega

/-- The centre's colour channels are the block's rows and columns 5 to 356. -/
theorem centre_rgb (v1 : FVec Ideal S4x362x362 .f32) (hc : S4x362x362.Slices ![0, 5, 5] S3x352x352) (k : Fin 3) (h w : Fin 352) :
    extractStridedSlice S3x352x352 ![0, 5, 5] v1 hc (ix3 k h w) = read3 v1 k.val (h.val + 5) (w.val + 5) := by
  unfold extractStridedSlice
  refine read3_of_idx v1 _ _ _ _ ?_ ?_ ?_
  · show 0 + k.val = _; omega
  · show 5 + h.val = _; omega
  · show 5 + w.val = _; omega

theorem centre_sal (v1 : FVec Ideal S4x362x362 .f32) (hc : S4x362x362.Slices ![3, 5, 5] S1x352x352) (h w : Fin 352) :
    extractStridedSlice S1x352x352 ![3, 5, 5] v1 hc (ix3 0 h w) = read3 v1 3 (h.val + 5) (w.val + 5) := by
  unfold extractStridedSlice
  refine read3_of_idx v1 _ _ _ _ ?_ ?_ ?_
  · show 3 + 0 = _; omega
  · show 5 + h.val = _; omega
  · show 5 + w.val = _; omega

/-- A sum over the leading channel axis, kept as a unit axis, is the three-term sum. -/
theorem sum_rgb (X : FVec Ideal S3x352x352 .f32) (hr : S3x352x352.Reduces [0] S352x352) (hφ : FKind.Formats .f32)
    (hacc : (0x00000000#32 : BitVec 32) = 0x00000000#32) (hsc : S352x352.ShapeCasts S1x352x352) (h w : Fin 352) :
    shapeCast S1x352x352 (multiReduction .add [0] S352x352 X 0x00000000#32 hr hφ hacc) hsc (ix3 0 h w) = ∑ k : Fin 3, X (ix3 k h w) := by
  refine (shapeCast_addUnit_apply ![352, 352] _ hsc (ix3 0 h w)).trans ?_
  refine (Ideal.multiReduction_add_single X _ hr hφ hacc _).trans ?_
  refine Finset.sum_congr rfl fun k _ => congrArg X ?_
  funext a
  refine Fin.ext ?_
  match a with
  | ⟨0, _⟩ => rfl
  | ⟨1, _⟩ => rfl
  | ⟨2, _⟩ => rfl

theorem exp_at {s : Shape} (v : FVec Ideal s .f32) (i : s.Idx) : exp v i = Ideal.exp (v i) := rfl
theorem absf_at {s : Shape} (v : FVec Ideal s .f32) (i : s.Idx) : absf v i = max (v i) (-(v i)) := rfl

/-- One shift of the kernel read at `(0, h, w)`: the loss map there plus `shiftTerm` of the image block. -/
theorem shift_apply (v1 : FVec Ideal S4x362x362 .f32) (acc : FVec Ideal S1x352x352 .f32) (dy dx : ℕ)
    (hs : S4x362x362.Slices ![0, dy, dx] S4x352x352)
    (h03 : S4x352x352.Slices ![0, 0, 0] S3x352x352) (h31 : S4x352x352.Slices ![3, 0, 0] S1x352x352)
    (hc3 : S4x362x362.Slices ![0, 5, 5] S3x352x352) (hc1 : S4x362x362.Slices ![3, 5, 5] S1x352x352)
    (hr : S3x352x352.Reduces [0] S352x352) (hφ : FKind.Formats .f32) (hacc : (0x00000000#32 : BitVec 32) = 0x00000000#32)
    (hsc : S352x352.ShapeCasts S1x352x352) (h w : Fin 352) :
    addf acc (mulf (exp (mulf (broadcast S1x352x352 (Scalar.ofBits .f32 0xC3480000#32))
        (shapeCast S1x352x352 (multiReduction .add [0] S352x352
          (mulf (subf (extractStridedSlice S3x352x352 ![0, 0, 0] (extractStridedSlice S4x352x352 ![0, dy, dx] v1 hs) h03) (extractStridedSlice S3x352x352 ![0, 5, 5] v1 hc3))
                (subf (extractStridedSlice S3x352x352 ![0, 0, 0] (extractStridedSlice S4x352x352 ![0, dy, dx] v1 hs) h03) (extractStridedSlice S3x352x352 ![0, 5, 5] v1 hc3)))
          0x00000000#32 hr hφ hacc) hsc)))
      (absf (subf (extractStridedSlice S1x352x352 ![3, 0, 0] (extractStridedSlice S4x352x352 ![0, dy, dx] v1 hs) h31) (extractStridedSlice S1x352x352 ![3, 5, 5] v1 hc1))))
      (ix3 0 h w)
    = acc (ix3 0 h w) + shiftTerm (read3 v1) h.val w.val dy dx := by
  rw [addf_apply, mulf_apply, exp_at, mulf_apply, broadcast_apply, sum_rgb, absf_at, subf_apply, window_sal, centre_sal]
  unfold shiftTerm
  simp only [mulf_apply, subf_apply, window_rgb, centre_rgb]
  rfl

end Cert.KernelIdeal.Shift

end
-- ==== Proof.KernelLoss.lean ====
import proofs.«145020_j56358560858814_1_alg».proof.Proof.Gen.KernelIdeal.Frame
import proofs.«145020_j56358560858814_1_alg».proof.Proof.KernelShift

noncomputable section

namespace Cert.KernelIdeal.Loss

open Idealize.ShloMosaic Idealize.ShloMosaic.ValueIdx Cert.KernelIdeal Cert.KernelIdeal.Gen Cert.Contour

/-- Summing a [1, 352, 352] vector over its last axis and then over its middle axis is the double sum over rows and columns. -/
theorem sum_rows_cols (X : FVec Ideal S1x352x352 .f32)
    (hr2 : S1x352x352.Reduces [2] S1x352) (hr1 : S1x352x1.Reduces [1] S1x1) (hφ : FKind.Formats .f32)
    (hacc : (0x00000000#32 : BitVec 32) = FKind.add.neutral .f32 hφ)
    (hc1 : S1x352.ShapeCasts S1x352x1) (hc2 : S1x1.ShapeCasts S1x1x1) (j : S1x1x1.Idx) :
    shapeCast S1x1x1 (multiReduction .add [1] S1x1 (shapeCast S1x352x1 (multiReduction .add [2] S1x352 X 0x00000000#32 hr2 hφ hacc) hc1)
        0x00000000#32 hr1 hφ hacc) hc2 j
      = ∑ h : Fin 352, ∑ w : Fin 352, X (ix3 0 h w) := by
  have j0 : (j 0).val < 1 := (j 0).isLt
  have j1 : (j 1).val < 1 := (j 1).isLt
  have j2 : (j 2).val < 1 := (j 2).isLt
  refine (shapeCast_apply _ hc2 j (ix2 0 0) ?_).trans ?_
  · rw [Shape.rowMajor_val_two, Shape.rowMajor_val_three]
    show 0 * 1 + 0 = ((j 0).val * 1 + (j 1).val) * 1 + (j 2).val
    omega
  refine (Ideal.multiReduction_add_single _ _ hr1 hφ hacc _).trans ?_
  refine Finset.sum_congr rfl fun h _ => ?_
  refine (shapeCast_apply _ hc1 _ (ix2 0 h) ?_).trans ?_
  · rw [Shape.rowMajor_val_two, Shape.rowMajor_val_three]
    show 0 * 352 + h.val = (0 * 352 + h.val) * 1 + 0
    omega
  refine (Ideal.multiReduction_add_single _ _ hr2 hφ hacc _).trans ?_
  refine Finset.sum_congr rfl fun w _ => congrArg X ?_
  funext a
  refine Fin.ext ?_
  match a with
  | ⟨0, _⟩ => rfl
  | ⟨1, _⟩ => rfl
  | ⟨2, _⟩ => rfl

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem mask_read (x1 : Vec Ideal S1x1x352x352 .f32) (hc : S1x1x352x352.ShapeCasts S1x352x352) (h w : Fin 352) :
    shapeCast S1x352x352 x1 hc (ix3 0 h w) = x1 (ix4 0 0 h w) := by
  refine shapeCast_apply _ hc _ (ix4 0 0 h w) ?_
  rw [Shape.rowMajor_val_four, Shape.rowMajor_val_three]
  show ((0 * 1 + 0) * 352 + h.val) * 352 + w.val = (0 * 352 + h.val) * 352 + w.val
  omega

/-- The first output's entry: the sum over rows and columns of (loss map * mask block). -/
theorem pay2_apply (A : FVec Ideal S1x352x352 .f32) (x1 : Vec Ideal S1x1x352x352 .f32) (j : S1x1x1.Idx) :
    k0_pay2 A x1 j = ∑ h : Fin 352, ∑ w : Fin 352, A (ix3 0 h w) * x1 (ix4 0 0 h w) := by
  unfold k0_pay2 k0_pay1
  dsimp only
  refine (sum_rows_cols _ _ _ _ _ _ _ _).trans ?_
  refine Finset.sum_congr rfl fun h _ => Finset.sum_congr rfl fun w _ => ?_
  rw [mulf_apply, mask_read]

/-- The second output's entry: the sum over rows and columns of the mask block. -/
theorem pay3_apply (x1 : Vec Ideal S1x1x352x352 .f32) (j : S1x1x1.Idx) :
    k0_pay3 x1 j = ∑ h : Fin 352, ∑ w : Fin 352, x1 (ix4 0 0 h w) := by
  unfold k0_pay3 k0_pay1
  dsimp only
  refine (sum_rows_cols _ _ _ _ _ _ _ _).trans ?_
  refine Finset.sum_congr rfl fun h _ => Finset.sum_congr rfl fun w _ => ?_
  rw [mask_read]

set_option maxHeartbeats 8000000 in
set_option maxRecDepth 65536 in

/-- The loss map the body builds is the 121 shifts' terms added in order, one `shift_apply` a shift. -/
theorem out0_2_apply (x0 : Vec Ideal S1x4x362x362 .f32) (x1 : Vec Ideal S1x1x352x352 .f32) (j : S1x1x1.Idx) :
    out0_2 x0 x1 j = ∑ h : Fin 352, ∑ w : Fin 352, lossUpTo (read3 (k0_pay4 x0)) h.val w.val 121 * x1 (ix4 0 0 h w) := by
  unfold out0_2
  rw [View.canon_unit_zero hz3]
  simp only [View.ld_unit_zero (S := S1x4x362x362) hz4, View.ld_unit_zero (S := S1x1x352x352) hz4]
  rw [pay2_apply]
  refine Finset.sum_congr rfl fun h _ => Finset.sum_congr rfl fun w _ => ?_
  refine congrArg (· * x1 (ix4 0 0 h w)) ?_
  dsimp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119]
  iterate 121 rw [Shift.shift_apply]
  simp only [lossUpTo, Nat.reduceDiv, Nat.reduceMod]
  rfl

theorem out0_3_apply (x0 : Vec Ideal S1x4x362x362 .f32) (x1 : Vec Ideal S1x1x352x352 .f32) (j : S1x1x1.Idx) :
    out0_3 x0 x1 j = ∑ h : Fin 352, ∑ w : Fin 352, x1 (ix4 0 0 h w) := by
  unfold out0_3
  rw [View.canon_unit_zero hz3]
  simp only [View.ld_unit_zero (S := S1x1x352x352) hz4]
  rw [pay3_apply]

end Cert.KernelIdeal.Loss

end
-- ==== Proof.KernelValue.lean ====
import proofs.«145020_j56358560858814_1_alg».proof.Proof.Gen.KernelIdeal.Frame
import proofs.«145020_j56358560858814_1_alg».proof.Proof.KernelLoss
import Idealize.ShloMosaic.Lib.Pipeline.Value
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Contour

variable (m : (ℓ : Loc nD τ sig) → Buf (Elt Ideal) ℓ) (ρ : Dev nD → PrngReg)

/-- A grid point as the batch image it works on. -/
def bat (t : Fin cfg0.N) : Fin 8 := ⟨t.val, N_0 ▸ t.isLt⟩

theorem lt_N {k : ℕ} (h : k < 8) : k < cfg0.N := by
  show k < grid0.N
  rw [N_0]
  exact h

/-- Every window's block index at point `t` is `(t, 0, …, 0)`. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The first input block at point `t` is image `t` of the padded array. -/
theorem blk0_read (c : Dev nD) (t : Fin cfg0.N) (k : Fin 4) (y x : Fin 362) :
    iblk m c 0 t (ix4 0 k y x) = V m c main_v13 (ix4 (bat t) k y x) := by
  obtain ⟨e0, e1, e2, e3, -⟩ := idx_facts t
  show V m c main_v13 (((cfg0.win 0).blk t).view.emb (ix4 0 k y x)) = _
  refine congrArg (V m c main_v13) (funext fun a => Fin.ext ?_)
  match a with
  | ⟨0, _⟩ => show win0_0.index t (0 : Fin 4) * 1 + 1 * 0 = t.val; omega
  | ⟨1, _⟩ => show win0_0.index t (1 : Fin 4) * 4 + 1 * k.val = k.val; omega
  | ⟨2, _⟩ => show win0_0.index t (2 : Fin 4) * 362 + 1 * y.val = y.val; omega
  | ⟨3, _⟩ => show win0_0.index t (3 : Fin 4) * 362 + 1 * x.val = x.val; omega

/-- The second input block at point `t` is image `t` of the mask. -/
theorem blk1_read (c : Dev nD) (t : Fin cfg0.N) (h w : Fin 352) :
    iblk m c 1 t (ix4 0 0 h w) = V m c main_v11 (ix4 (bat t) 0 h w) := by
  obtain ⟨-, -, -, -, e0, e1, e2, e3, -⟩ := idx_facts t
  show V m c main_v11 (((cfg0.win 1).blk t).view.emb (ix4 0 0 h w)) = _
  refine congrArg (V m c main_v11) (funext fun a => Fin.ext ?_)
  match a with
  | ⟨0, _⟩ => show win0_1.index t (0 : Fin 4) * 1 + 1 * 0 = t.val; omega
  | ⟨1, _⟩ => show win0_1.index t (1 : Fin 4) * 1 + 1 * 0 = 0; omega
  | ⟨2, _⟩ => show win0_1.index t (2 : Fin 4) * 352 + 1 * h.val = h.val; omega
  | ⟨3, _⟩ => show win0_1.index t (3 : Fin 4) * 352 + 1 * w.val = w.val; omega

theorem pay4_read (c : Dev nD) (t : Fin cfg0.N) : read3 (k0_pay4 (iblk m c 0 t)) = read4 (V m c main_v13) (bat t) := by
  funext k y x
  unfold read3 read4
  by_cases hh : k < 4 ∧ y < 362 ∧ x < 362
  · rw [dif_pos hh, dif_pos hh]
    have e : k0_pay4 (iblk m c 0 t) (ix3 ⟨k, hh.1⟩ ⟨y, hh.2.1⟩ ⟨x, hh.2.2⟩) = iblk m c 0 t (ix4 0 ⟨k, hh.1⟩ ⟨y, hh.2.1⟩ ⟨x, hh.2.2⟩) := by
      unfold k0_pay4
      refine shapeCast_apply _ _ _ (ix4 0 ⟨k, hh.1⟩ ⟨y, hh.2.1⟩ ⟨x, hh.2.2⟩) ?_
      rw [Shape.rowMajor_val_four, Shape.rowMajor_val_three]
      show ((0 * 4 + k) * 362 + y) * 362 + x = (k * 362 + y) * 362 + x
      omega
    rw [e, blk0_read]
  · rw [dif_neg hh, dif_neg hh]

/-- Per image: the mask-weighted sum of the loss map over the pixels. -/
def numOf (P : FVec Ideal S8x4x362x362 .f32) (M : FVec Ideal S8x1x352x352 .f32) : FVec Ideal S8x1x1 .f32 :=
  fun i => ∑ h : Fin 352, ∑ w : Fin 352, lossUpTo (read4 P ⟨(i 0).val, (i 0).isLt⟩) h.val w.val 121 * M (ix4 ⟨(i 0).val, (i 0).isLt⟩ 0 h w)

/-- Per image: the mask's sum over the pixels. -/
def denOf (M : FVec Ideal S8x1x352x352 .f32) : FVec Ideal S8x1x1 .f32 :=
  fun i => ∑ h : Fin 352, ∑ w : Fin 352, M (ix4 ⟨(i 0).val, (i 0).isLt⟩ 0 h w)

theorem emb2 (t : Fin cfg0.N) (j : ((cfg0.win 2).xblock (cfg0.grid.coords t)).Idx) : (((cfg0.win 2).blk t).view.emb j 0).val = t.val := by
  obtain ⟨-, -, -, -, -, -, -, -, e0, -⟩ := idx_facts t
  have j0 : (j 0).val < 1 := (j 0).isLt
  show win0_2.index t (0 : Fin 3) * 1 + 1 * (j 0).val = t.val
  omega

theorem emb3 (t : Fin cfg0.N) (j : ((cfg0.win 3).xblock (cfg0.grid.coords t)).Idx) : (((cfg0.win 3).blk t).view.emb j 0).val = t.val := by
  obtain ⟨-, -, -, -, -, -, -, -, -, -, -, e0, -⟩ := idx_facts t
  have j0 : (j 0).val < 1 := (j 0).isLt
  show win0_3.index t (0 : Fin 3) * 1 + 1 * (j 0).val = t.val
  omega

/-- Point `t` writes block `t` of `numOf`. -/
theorem flushed2_eq (c : Dev nD) (t : Fin cfg0.N) :
    (dats m 0 c).flushed 2 t = ((cfg0.win 2).blk t).view.read (Elt Ideal) (numOf (V m c main_v13) (V m c main_v11)) := by
  show (cfg0.win 2).cut (grid0.coords t) ((dats m 0 c).after 2 t) = _
  rw [after0_2]
  funext j
  show out0_2 (iblk m c 0 t) (iblk m c 1 t) j = numOf (V m c main_v13) (V m c main_v11) (((cfg0.win 2).blk t).view.emb j)
  have eb : (⟨(((cfg0.win 2).blk t).view.emb j 0).val, (((cfg0.win 2).blk t).view.emb j 0).isLt⟩ : Fin 8) = bat t := Fin.ext (emb2 t j)
  rw [Loss.out0_2_apply, pay4_read]
  unfold numOf
  rw [eb]
  refine Finset.sum_congr rfl fun h _ => Finset.sum_congr rfl fun w _ => ?_
  rw [blk1_read]

theorem flushed3_eq (c : Dev nD) (t : Fin cfg0.N) :
    (dats m 0 c).flushed 3 t = ((cfg0.win 3).blk t).view.read (Elt Ideal) (denOf (V m c main_v11)) := by
  show (cfg0.win 3).cut (grid0.coords t) ((dats m 0 c).after 3 t) = _
  rw [after0_3]
  funext j
  show out0_3 (iblk m c 0 t) (iblk m c 1 t) j = denOf (V m c main_v11) (((cfg0.win 3).blk t).view.emb j)
  have eb : (⟨(((cfg0.win 3).blk t).view.emb j 0).val, (((cfg0.win 3).blk t).view.emb j 0).isLt⟩ : Fin 8) = bat t := Fin.ext (emb3 t j)
  rw [Loss.out0_3_apply]
  unfold denOf
  rw [eb]
  refine Finset.sum_congr rfl fun h _ => Finset.sum_congr rfl fun w _ => ?_
  rw [blk1_read]

theorem mem_blk2 (t : Fin cfg0.N) (i : S8x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v14_0).slice (win0_2.rect t)).set ↔ _
  rw [View.set_slice_whole, Rect.mem_set_unit]
  exact Iff.rfl

theorem mem_blk3 (t : Fin cfg0.N) (i : S8x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v14_1).slice (win0_3.rect t)).set ↔ _
  rw [View.set_slice_whole, Rect.mem_set_unit]
  exact Iff.rfl

/-- Entry `(n, 0, 0)` of an output lies in point `n`'s block. -/
theorem cover2 (i : S8x1x1.Idx) : ∃ t : Fin cfg0.N, (cfg0.win 2).flush t = true ∧ i ∈ ((cfg0.win 2).blk t).view.set := by
  have i0 : (i 0).val < 8 := (i 0).isLt
  have i1 : (i 1).val < 1 := (i 1).isLt
  have i2 : (i 2).val < 1 := (i 2).isLt
  obtain ⟨t, ht⟩ : ∃ t : Fin cfg0.N, t.val = (i 0).val := ⟨⟨(i 0).val, lt_N i0⟩, rfl⟩
  obtain ⟨-, -, -, -, -, -, -, -, e0, e1, e2, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1 ≤ (i 2).val ∧ (i 2).val < win0_2.index t (2 : Fin 3) * 1 + 1; omega

theorem cover3 (i : S8x1x1.Idx) : ∃ t : Fin cfg0.N, (cfg0.win 3).flush t = true ∧ i ∈ ((cfg0.win 3).blk t).view.set := by
  have i0 : (i 0).val < 8 := (i 0).isLt
  have i1 : (i 1).val < 1 := (i 1).isLt
  have i2 : (i 2).val < 1 := (i 2).isLt
  obtain ⟨t, ht⟩ : ∃ t : Fin cfg0.N, t.val = (i 0).val := ⟨⟨(i 0).val, lt_N i0⟩, rfl⟩
  obtain ⟨-, -, -, -, -, -, -, -, -, -, -, e0, e1, e2⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1 ≤ (i 2).val ∧ (i 2).val < win0_3.index t (2 : Fin 3) * 1 + 1; omega

theorem final2 (c : Dev nD) : (dats m 0 c).arrAt 2 cfg0.N = numOf (V m c main_v13) (V m c main_v11) :=
  (dats m 0 c).arrAt_eq_of_cover 2 _ (fun t _ => flushed2_eq m c t) cover2

theorem final3 (c : Dev nD) : (dats m 0 c).arrAt 3 cfg0.N = denOf (V m c main_v11) :=
  (dats m 0 c).arrAt_eq_of_cover 3 _ (fun t _ => flushed3_eq m c t) cover3

def idxEquiv : (⟨3, ![8, 1, 1]⟩ : Shape).Idx ≃ Fin 8 where
  toFun i := i 0
  invFun n := ix3 n 0 0
  left_inv i := by
    funext a
    match a with
    | ⟨0, _⟩ => rfl
    | ⟨1, _⟩ => exact Fin.ext (by have h1 : (i 1).val < 1 := (i 1).isLt; show 0 = (i 1).val; omega)
    | ⟨2, _⟩ => exact Fin.ext (by have h2 : (i 2).val < 1 := (i 2).isLt; show 0 = (i 2).val; omega)
  right_inv _ := rfl

/-- A sum of an [8, 1, 1] array over every axis from the f32 zero is the sum of its eight entries. -/
theorem total_sum (x : FVec Ideal S8x1x1 .f32) (i : S_.Idx) :
    Host.reduceAdd x (constant (F := Ideal) S_ .f32 0x00000000#32) reducesTo_S8x1x1_S_d0_1_2 h_S_ i = ∑ n : Fin 8, x (ix3 n 0 0) := by
  show Ideal.hostReduceAdd reducesTo_S8x1x1_S_d0_1_2 x (Ideal.ofBits .f32 0x00000000#32) i = _
  rw [Ideal.hostReduceAdd_total _ (fun b => b.elim0), Ideal.ofBits_zero_f32, zero_add, ← Equiv.sum_comp idxEquiv.symm x]
  rfl

theorem quotient_at (x y : FVec Ideal S_ .f32) (b : BitVec 32) (i : S_.Idx) :
    Host.divf (F := Ideal) x (addf y (constant S_ .f32 b)) i = Ideal.div (x i) (y i + Ideal.ofBits .f32 b) := rfl

/-- The host lines after the region sum the eight per-image numbers and divide: the contour loss. -/
theorem result_eq (c : Dev nD) :
    Pipeline.afterTail₀ cfgs (dats m) 0 (V0 m) [hostOps1] c main_v18
      = fun _ => contour (fun n h w => lossUpTo (read4 (V m c main_v13) n) h.val w.val 121) (fun n h w => V m c main_v11 (ix4 n 0 h w)) := by
  unfold Pipeline.afterTail₀
  show StableHlo.after hostOps1 _ (Proc.devRef .tc main_v18) = _
  after_results
  have h2 : Pipeline.withArrays (cfgs 0).spec c (V0 m c) (fun w => (dats m 0 c).arrAt w (cfgs 0).N) (Proc.devRef .tc main_v14_0)
      = numOf (V m c main_v13) (V m c main_v11) :=
    (Pipeline.withArrays_arr spec0 launch0.win.arr_inj c _ _ 2).trans (final2 m c)
  have h3 : Pipeline.withArrays (cfgs 0).spec c (V0 m c) (fun w => (dats m 0 c).arrAt w (cfgs 0).N) (Proc.devRef .tc main_v14_1)
      = denOf (V m c main_v11) :=
    (Pipeline.withArrays_arr spec0 launch0.win.arr_inj c _ _ 3).trans (final3 m c)
  rw [h2, h3]
  funext i
  rw [quotient_at, total_sum, total_sum]
  unfold contour numOf denOf
  rfl

/-- The padded four-channel array the region finds, from the arguments. -/
theorem V_pad (c : Dev nD) : V m c main_v13 = pad S8x4x362x362 ![0, 0, 5, 5] ![0, 0, 5, 5] ![0, 0, 0, 0]
    (concatenate S8x4x352x352 1 [⟨S8x3x352x352, m ((c : Thread nD τ).loc main_arg1)⟩, ⟨S8x1x352x352, m ((c : Thread nD τ).loc main_arg0)⟩] concatenates_S8x3x352x352_S8x1x352x352_S8x4x352x352_d1)
    (sitofp (F := Ideal) .f32 (constantI S_ 32 0#32)) pads_S8x4x352x352_S8x4x362x362_000_000_550_550 h_S_ := by
  dsimp only [V, V0]
  simp only [hostOps0, hostOps0_1, List.flatten_cons, List.flatten_nil, List.append_nil, List.cons_append, List.nil_append]
  after_results
  all_goals rfl

/-- The contour mask the region finds, from the saliency argument. -/
theorem V_mask (c : Dev nD) : V m c main_v11 =
    (subf (Host.reduceWindow FloatOps.maximumf ![1, 1, 5, 5] ![1, 1, 1, 1] ![0, 0, 2, 2] ![0, 0, 2, 2] (uitofp (F := Ideal) .f32 (cmpf (F := Ideal) .ogt (m ((c : Thread nD τ).loc main_arg0)) (broadcastInDim S8x1x352x352 ![] bcast_S_S8x1x352x352 (constant (F := Ideal) S_ .f32 0x3F000000#32)))) (broadcastInDim S_ ![] bcast_S_S_ (constant (F := Ideal) S_ .f32 0xFF800000#32)) reduceWindows_S8x1x352x352_S8x1x352x352_w1s1p0_0_w1s1p0_0_w5s1p2_2_w5s1p2_2 h_S_) (subf (broadcastInDim S8x1x352x352 ![] bcast_S_S8x1x352x352 (constant (F := Ideal) S_ .f32 0x3F800000#32)) (Host.reduceWindow FloatOps.maximumf ![1, 1, 5, 5] ![1, 1, 1, 1] ![0, 0, 2, 2] ![0, 0, 2, 2] (subf (broadcastInDim S8x1x352x352 ![] bcast_S_S8x1x352x352 (constant (F := Ideal) S_ .f32 0x3F800000#32)) (uitofp (F := Ideal) .f32 (cmpf (F := Ideal) .ogt (m ((c : Thread nD τ).loc main_arg0)) (broadcastInDim S8x1x352x352 ![] bcast_S_S8x1x352x352 (constant (F := Ideal) S_ .f32 0x3F000000#32))))) (broadcastInDim S_ ![] bcast_S_S_ (constant (F := Ideal) S_ .f32 0xFF800000#32)) reduceWindows_S8x1x352x352_S8x1x352x352_w1s1p0_0_w1s1p0_0_w5s1p2_2_w5s1p2_2 h_S_))) := by
  dsimp only [V, V0]
  simp only [hostOps0, hostOps0_1, List.flatten_cons, List.flatten_nil, List.append_nil, List.cons_append, List.nil_append]
  after_results
  all_goals rfl

/-- The kernel program's run: the result buffer ends at the contour loss, the arguments unchanged. -/
theorem run : θ_run defs (onTc (τ := τ) (main (F := Ideal))) ⟨m, fun _ => 0, ρ⟩ fun r => ∀ c : Dev nD,
      r.2.mem ((c.tc : Thread nD τ).loc main_v18)
          = (fun _ => contour (fun n h w => lossUpTo (read4 (V m c main_v13) n) h.val w.val 121) (fun n h w => V m c main_v11 (ix4 n 0 h w)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v18 (Pipeline.mem_restRefs_of main_v18 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.RefShift.lean ====
import proofs.«145020_j56358560858814_1_alg».proof.ReferenceIdeal
import proofs.«145020_j56358560858814_1_alg».proof.Proof.ShiftTerm
import Idealize.ShloMosaic.Lib.Pipeline.Value
import Idealize.ShloMosaic.Lib.KernelVsHost
import Idealize.ShloMosaic.PureOps.Ideal.Laws

noncomputable section

namespace Cert.ReferenceIdeal.Shift

open Idealize.ShloMosaic Idealize.ShloMosaic.ValueIdx Cert.ReferenceIdeal Cert.Contour

/-- A window of the padded array, then its colour channels: the padded array at the shifted coordinates. -/
theorem window_rgb (P : FVec Ideal S8x4x362x362 .f32) (dy dx : ℕ)
    (hs : S8x4x362x362.Slices ![0, 0, dy, dx] S8x4x352x352) (hc : S8x4x352x352.Slices ![0, 0, 0, 0] S8x3x352x352)
    (n : Fin 8) (k : Fin 3) (h w : Fin 352) :
    extractStridedSlice S8x3x352x352 ![0, 0, 0, 0] (extractStridedSlice S8x4x352x352 ![0, 0, dy, dx] P hs) hc (ix4 n k h w)
      = read4 P n k.val (h.val + dy) (w.val + dx) := by
  unfold extractStridedSlice
  refine read4_of_idx P n _ _ _ _ ?_ ?_ ?_ ?_
  · exact Fin.ext (by show 0 + (0 + n.val) = _; omega)
  · show 0 + (0 + k.val) = _; omega
  · show dy + (0 + h.val) = _; omega
  · show dx + (0 + w.val) = _; omega

theorem window_sal (P : FVec Ideal S8x4x362x362 .f32) (dy dx : ℕ)
    (hs : S8x4x362x362.Slices ![0, 0, dy, dx] S8x4x352x352) (hc : S8x4x352x352.Slices ![0, 3, 0, 0] S8x1x352x352)
    (n : Fin 8) (h w : Fin 352) :
    extractStridedSlice S8x1x352x352 ![0, 3, 0, 0] (extractStridedSlice S8x4x352x352 ![0, 0, dy, dx] P hs) hc (ix4 n 0 h w)
      = read4 P n 3 (h.val + dy) (w.val + dx) := by
  unfold extractStridedSlice
  refine read4_of_idx P n _ _ _ _ ?_ ?_ ?_ ?_
  · exact Fin.ext (by show 0 + (0 + n.val) = _; omega)
  · show 0 + (3 + 0) = _; omega
  · show dy + (0 + h.val) = _; omega
  · show dx + (0 + w.val) = _; omega

/-- Inside the padding, `(pad C)[n, c, h + 5, w + 5] = C[n, c, h, w]`. -/
theorem centre_read (C : FVec Ideal S8x4x352x352 .f32) {u : Shape} (v : u.Idx → EReal)
    (hp : S8x4x352x352.Pads ![0, 0, 5, 5] ![0, 0, 5, 5] ![0, 0, 0, 0] S8x4x362x362) (hu : 0 < u.numel)
    (n : Fin 8) (c : Fin 4) (h w : Fin 352) :
    C (ix4 n c h w) = read4 (pad S8x4x362x362 ![0, 0, 5, 5] ![0, 0, 5, 5] ![0, 0, 0, 0] C v hp hu) n c.val (h.val + 5) (w.val + 5) := by
  have e : read4 (pad S8x4x362x362 ![0, 0, 5, 5] ![0, 0, 5, 5] ![0, 0, 0, 0] C v hp hu) n c.val (h.val + 5) (w.val + 5)
      = pad S8x4x362x362 ![0, 0, 5, 5] ![0, 0, 5, 5] ![0, 0, 0, 0] C v hp hu (ix4 n c ⟨h.val + 5, by omega⟩ ⟨w.val + 5, by omega⟩) := by
    unfold read4
    rw [dif_pos ⟨c.isLt, by omega, by omega⟩]
  rw [e]
  refine (pad_apply_of_inside _ _ _ C v hp hu _ (ix4 n c h w) ?_).symm
  intro a
  match a with
  | ⟨0, _⟩ => show n.val = 0 + n.val * (0 + 1); omega
  | ⟨1, _⟩ => show c.val = 0 + c.val * (0 + 1); omega
  | ⟨2, _⟩ => show h.val + 5 = 5 + h.val * (0 + 1); omega
  | ⟨3, _⟩ => show w.val + 5 = 5 + w.val * (0 + 1); omega

theorem centre_rgb (C : FVec Ideal S8x4x352x352 .f32) {u : Shape} (v : u.Idx → EReal)
    (hp : S8x4x352x352.Pads ![0, 0, 5, 5] ![0, 0, 5, 5] ![0, 0, 0, 0] S8x4x362x362) (hu : 0 < u.numel)
    (hc : S8x4x352x352.Slices ![0, 0, 0, 0] S8x3x352x352) (n : Fin 8) (k : Fin 3) (h w : Fin 352) :
    extractStridedSlice S8x3x352x352 ![0, 0, 0, 0] C hc (ix4 n k h w)
      = read4 (pad S8x4x362x362 ![0, 0, 5, 5] ![0, 0, 5, 5] ![0, 0, 0, 0] C v hp hu) n k.val (h.val + 5) (w.val + 5) := by
  have e : extractStridedSlice S8x3x352x352 ![0, 0, 0, 0] C hc (ix4 n k h w) = C (ix4 n ⟨k.val, by omega⟩ h w) := by
    unfold extractStridedSlice
    refine congrArg C (funext fun a => Fin.ext ?_)
    match a with
    | ⟨0, _⟩ => show 0 + n.val = n.val; omega
    | ⟨1, _⟩ => show 0 + k.val = k.val; omega
    | ⟨2, _⟩ => show 0 + h.val = h.val; omega
    | ⟨3, _⟩ => show 0 + w.val = w.val; omega
  rw [e]
  exact centre_read C v hp hu n ⟨k.val, by omega⟩ h w

theorem centre_sal (C : FVec Ideal S8x4x352x352 .f32) {u : Shape} (v : u.Idx → EReal)
    (hp : S8x4x352x352.Pads ![0, 0, 5, 5] ![0, 0, 5, 5] ![0, 0, 0, 0] S8x4x362x362) (hu : 0 < u.numel)
    (hc : S8x4x352x352.Slices ![0, 3, 0, 0] S8x1x352x352) (n : Fin 8) (h w : Fin 352) :
    extractStridedSlice S8x1x352x352 ![0, 3, 0, 0] C hc (ix4 n 0 h w)
      = read4 (pad S8x4x362x362 ![0, 0, 5, 5] ![0, 0, 5, 5] ![0, 0, 0, 0] C v hp hu) n 3 (h.val + 5) (w.val + 5) := by
  have e : extractStridedSlice S8x1x352x352 ![0, 3, 0, 0] C hc (ix4 n 0 h w) = C (ix4 n ⟨3, by omega⟩ h w) := by
    unfold extractStridedSlice
    refine congrArg C (funext fun a => Fin.ext ?_)
    match a with
    | ⟨0, _⟩ => show 0 + n.val = n.val; omega
    | ⟨1, _⟩ => show 3 + 0 = 3; omega
    | ⟨2, _⟩ => show 0 + h.val = h.val; omega
    | ⟨3, _⟩ => show 0 + w.val = w.val; omega
  rw [e]
  exact centre_read C v hp hu n ⟨3, by omega⟩ h w

/-- A sum over the channel axis from the f32 zero, broadcast back to a unit channel axis, is the three-term sum. -/
theorem sum_rgb (X : FVec Ideal S8x3x352x352 .f32) (hred : S8x3x352x352.ReducesTo [1] S8x352x352) (hu : 0 < S_.numel)
    (hb : S8x352x352.BroadcastsInDim S8x1x352x352 ![0, 2, 3]) (n : Fin 8) (h w : Fin 352) :
    broadcastInDim S8x1x352x352 ![0, 2, 3] hb (Host.reduceAdd X (constant S_ .f32 0x00000000#32) hred hu) (ix4 n 0 h w)
      = ∑ k : Fin 3, X (ix4 n k h w) := by
  have hR : S8x3x352x352.Reduces [1] S8x352x352 := by decide
  refine (broadcastInDim_apply _ hb _ (ix4 n 0 h w) (ix3 n h w) ?_).trans ?_
  · intro a
    match a with
    | ⟨0, _⟩ => show n.val = if (8 : ℕ) = 1 then 0 else n.val; rw [if_neg (by decide)]
    | ⟨1, _⟩ => show h.val = if (352 : ℕ) = 1 then 0 else h.val; rw [if_neg (by decide)]
    | ⟨2, _⟩ => show w.val = if (352 : ℕ) = 1 then 0 else w.val; rw [if_neg (by decide)]
  · show Ideal.hostReduceAdd hred X (Ideal.ofBits .f32 0x00000000#32) (ix3 n h w) = _
    rw [Ideal.hostReduceAdd_single hred hR, Ideal.ofBits_zero_f32, zero_add]
    refine Finset.sum_congr rfl fun k _ => congrArg X ?_
    funext a
    refine Fin.ext ?_
    match a with
    | ⟨0, _⟩ => rfl
    | ⟨1, _⟩ => rfl
    | ⟨2, _⟩ => rfl
    | ⟨3, _⟩ => rfl

theorem exp_at {s : Shape} (v : FVec Ideal s .f32) (i : s.Idx) : Host.exp v i = Ideal.exp (v i) := rfl
theorem absf_at {s : Shape} (v : FVec Ideal s .f32) (i : s.Idx) : Host.absf v i = max (v i) (-(v i)) := rfl
theorem splat_at (hb : S_.BroadcastsInDim S8x1x352x352 ![]) (b : BitVec 32) (i : S8x1x352x352.Idx) :
    broadcastInDim S8x1x352x352 ![] hb (constant (F := Ideal) S_ .f32 b) i = Ideal.ofBits .f32 b := rfl

/-- One shift of the reference read at `(n, 0, h, w)`: the loss map there plus `shiftTerm` of image `n` of the padded array. -/
theorem shift_apply (C : FVec Ideal S8x4x352x352 .f32) (v : FVec Ideal S_ .f32) (acc : FVec Ideal S8x1x352x352 .f32) (dy dx : ℕ)
    (hp : S8x4x352x352.Pads ![0, 0, 5, 5] ![0, 0, 5, 5] ![0, 0, 0, 0] S8x4x362x362) (hu : 0 < S_.numel)
    (hs : S8x4x362x362.Slices ![0, 0, dy, dx] S8x4x352x352)
    (h03 : S8x4x352x352.Slices ![0, 0, 0, 0] S8x3x352x352) (h31 : S8x4x352x352.Slices ![0, 3, 0, 0] S8x1x352x352)
    (hb0 : S_.BroadcastsInDim S8x1x352x352 ![]) (hb3 : S8x352x352.BroadcastsInDim S8x1x352x352 ![0, 2, 3])
    (hred : S8x3x352x352.ReducesTo [1] S8x352x352) (n : Fin 8) (h w : Fin 352) :
    addf acc (mulf (Host.exp (mulf (broadcastInDim S8x1x352x352 ![] hb0 (constant S_ .f32 0xC3480000#32))
        (broadcastInDim S8x1x352x352 ![0, 2, 3] hb3 (Host.reduceAdd
          (mulf (subf (extractStridedSlice S8x3x352x352 ![0, 0, 0, 0] (extractStridedSlice S8x4x352x352 ![0, 0, dy, dx] (pad S8x4x362x362 ![0, 0, 5, 5] ![0, 0, 5, 5] ![0, 0, 0, 0] C v hp hu) hs) h03) (extractStridedSlice S8x3x352x352 ![0, 0, 0, 0] C h03))
                (subf (extractStridedSlice S8x3x352x352 ![0, 0, 0, 0] (extractStridedSlice S8x4x352x352 ![0, 0, dy, dx] (pad S8x4x362x362 ![0, 0, 5, 5] ![0, 0, 5, 5] ![0, 0, 0, 0] C v hp hu) hs) h03) (extractStridedSlice S8x3x352x352 ![0, 0, 0, 0] C h03)))
          (constant S_ .f32 0x00000000#32) hred hu))))
      (Host.absf (subf (extractStridedSlice S8x1x352x352 ![0, 3, 0, 0] (extractStridedSlice S8x4x352x352 ![0, 0, dy, dx] (pad S8x4x362x362 ![0, 0, 5, 5] ![0, 0, 5, 5] ![0, 0, 0, 0] C v hp hu) hs) h31) (extractStridedSlice S8x1x352x352 ![0, 3, 0, 0] C h31))))
      (ix4 n 0 h w)
    = acc (ix4 n 0 h w) + shiftTerm (read4 (pad S8x4x362x362 ![0, 0, 5, 5] ![0, 0, 5, 5] ![0, 0, 0, 0] C v hp hu) n) h.val w.val dy dx := by
  rw [addf_apply, mulf_apply, exp_at, mulf_apply, splat_at, sum_rgb, absf_at, subf_apply, window_sal, centre_sal C v hp hu]
  unfold shiftTerm
  simp only [mulf_apply, subf_apply, window_rgb, centre_rgb C v hp hu]

end Cert.ReferenceIdeal.Shift

end
-- ==== Proof.RefBase.lean ====
import proofs.«145020_j56358560858814_1_alg».proof.Proof.Gen.ReferenceIdeal
import proofs.«145020_j56358560858814_1_alg».proof.Proof.RefShift
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo
open Idealize.ShloMosaic.ValueIdx Cert.Contour

/-- The four-channel array: the three colour channels of `a1`, then the saliency map `a0`. -/
def catOf (a0 : FVec Ideal S8x1x352x352 .f32) (a1 : FVec Ideal S8x3x352x352 .f32) : FVec Ideal S8x4x352x352 .f32 :=
  concatenate S8x4x352x352 1 [⟨S8x3x352x352, a1⟩, ⟨S8x1x352x352, a0⟩] concatenates_S8x3x352x352_S8x1x352x352_S8x4x352x352_d1

/-- Its copy with five zeros on each side of its rows and of its columns. -/
def padOf (a0 : FVec Ideal S8x1x352x352 .f32) (a1 : FVec Ideal S8x3x352x352 .f32) : FVec Ideal S8x4x362x362 .f32 :=
  pad S8x4x362x362 ![0, 0, 5, 5] ![0, 0, 5, 5] ![0, 0, 0, 0] (catOf a0 a1) (sitofp .f32 (constantI S_ 32 0#32)) pads_S8x4x352x352_S8x4x362x362_000_000_550_550 h_S_

/-- The contour mask: the 5 x 5 dilation of the thresholded saliency map minus its 5 x 5 erosion. -/
def maskOf (a0 : FVec Ideal S8x1x352x352 .f32) : FVec Ideal S8x1x352x352 .f32 :=
  (subf (Host.reduceWindow FloatOps.maximumf ![1, 1, 5, 5] ![1, 1, 1, 1] ![0, 0, 2, 2] ![0, 0, 2, 2] (uitofp .f32 (cmpf .ogt a0 (broadcastInDim S8x1x352x352 ![] bcast_S_S8x1x352x352 (constant S_ .f32 0x3F000000#32)))) (broadcastInDim S_ ![] bcast_S_S_ (constant S_ .f32 0xFF800000#32)) reduceWindows_S8x1x352x352_S8x1x352x352_w1s1p0_0_w1s1p0_0_w5s1p2_2_w5s1p2_2 h_S_) (subf (broadcastInDim S8x1x352x352 ![] bcast_S_S8x1x352x352 (constant S_ .f32 0x3F800000#32)) (Host.reduceWindow FloatOps.maximumf ![1, 1, 5, 5] ![1, 1, 1, 1] ![0, 0, 2, 2] ![0, 0, 2, 2] (subf (broadcastInDim S8x1x352x352 ![] bcast_S_S8x1x352x352 (constant S_ .f32 0x3F800000#32)) (uitofp .f32 (cmpf .ogt a0 (broadcastInDim S8x1x352x352 ![] bcast_S_S8x1x352x352 (constant S_ .f32 0x3F000000#32))))) (broadcastInDim S_ ![] bcast_S_S_ (constant S_ .f32 0xFF800000#32)) reduceWindows_S8x1x352x352_S8x1x352x352_w1s1p0_0_w1s1p0_0_w5s1p2_2_w5s1p2_2 h_S_)))

/-- What every stretch after the prologue finds and leaves in place. -/
structure Base (a0 : FVec Ideal S8x1x352x352 .f32) (a1 : FVec Ideal S8x3x352x352 .f32) (V : Valuation τ sig (Elt Ideal)) : Prop where
  pad : V (Proc.devRef .tc main_v13) = padOf a0 a1
  crgb : V (Proc.devRef .tc main_v14) = extractStridedSlice S8x3x352x352 ![0, 0, 0, 0] (catOf a0 a1) slices_S8x4x352x352_S8x3x352x352_0_0_0_0
  csal : V (Proc.devRef .tc main_v15) = extractStridedSlice S8x1x352x352 ![0, 3, 0, 0] (catOf a0 a1) slices_S8x4x352x352_S8x1x352x352_0_3_0_0
  mask : V (Proc.devRef .tc main_v11) = maskOf a0
  arg0 : V (Proc.devRef .tc main_arg0) = a0
  arg1 : V (Proc.devRef .tc main_arg1) = a1

/-- The loss map `A` holds, at every pixel, the first `k` shifts' terms. -/
def AccAt (a0 : FVec Ideal S8x1x352x352 .f32) (a1 : FVec Ideal S8x3x352x352 .f32) (A : FVec Ideal S8x1x352x352 .f32) (k : ℕ) : Prop :=
  ∀ (n : Fin 8) (h w : Fin 352), A (ix4 n 0 h w) = lossUpTo (read4 (padOf a0 a1) n) h.val w.val k

/-! ## Buffers by number

Shift `k` writes the sixteen buffers `27 + 16 k, …, 42 + 16 k`, the last of them the loss map after `k + 1` shifts. -/

abbrev hb (i : ℕ) (h : i < 1971) : Ref sig .tc := ⟨.hbm, ⟨i, h⟩, rfl⟩

theorem hb_ne {i j : ℕ} {hi : i < 1971} {hj : j < 1971} (h : i ≠ j) : hb i hi ≠ hb j hj :=
  fun e => h (congrArg (fun r : Ref sig .tc => r.idx.val) e)

def tr (T : BufTy) (i : ℕ) (hT : hbmTy i = T) (h : i < 1971) : TRef sig T := ⟨hb i h, hT, nofun, rfl⟩

theorem tr_ne {T T' : BufTy} {i j : ℕ} {hT : hbmTy i = T} {hT' : hbmTy j = T'} {hi : i < 1971} {hj : j < 1971} (h : i ≠ j) :
    (tr T i hT hi).ref ≠ (tr T' j hT' hj).ref := hb_ne h

abbrev A4 : BufTy := ⟨S8x4x352x352, .f32⟩
abbrev A3 : BufTy := ⟨S8x3x352x352, .f32⟩
abbrev A1 : BufTy := ⟨S8x1x352x352, .f32⟩
abbrev A0 : BufTy := ⟨S8x352x352, .f32⟩
abbrev Sc : BufTy := ⟨S_, .f32⟩

abbrev shiftTy : Fin 16 → BufTy := ![A4, A3, A3, A1, A1, A1, A3, Sc, A0, A1, Sc, A1, A1, A1, A1, A1]

theorem ty_shift : ∀ (k : Fin 121) (j : Fin 16), hbmTy (27 + 16 * k.val + j.val) = shiftTy j := by decide +kernel

theorem ty_acc : ∀ k : Fin 122, hbmTy (26 + 16 * k.val) = A1 := by decide +kernel

theorem slices_win : ∀ k : Fin 121, S8x4x362x362.Slices ![0, 0, k.val / 11, k.val % 11] S8x4x352x352 := by decide +kernel

/-- The loss map after `k` shifts. -/
abbrev acc (k : ℕ) (hk : k < 122 := by omega) : TRef sig A1 := tr _ (26 + 16 * k) (ty_acc ⟨k, hk⟩) (by omega)

/-- Buffer `j` of shift `k`. -/
abbrev sb (T : BufTy) (k : ℕ) (hk : k < 121) (j : ℕ) (hj : j < 16 := by omega) (hT : shiftTy ⟨j, hj⟩ = T := by rfl) : TRef sig T :=
  tr _ (27 + 16 * k + j) ((ty_shift ⟨k, hk⟩ ⟨j, hj⟩).trans hT) (by omega)

/-- A buffer the prologue wrote. -/
abbrev pb (T : BufTy) (i : ℕ) (hi : i < 27 := by omega) (hT : hbmTy i = T := by rfl) : TRef sig T := tr T i hT (by omega)

/-! ## Reading a typed buffer -/

section
variable {Val : EltTy → Type} {T Tx Ta Tb Ty : BufTy}

def rd (V : Valuation τ sig Val) (x : TRef sig T) : T.Contents Val := x.ofBuf (V (Proc.devRef .tc x.ref))

theorem ofBuf_toBuf (y : TRef sig T) (v : T.Contents Val) : y.ofBuf (y.toBuf v) = v := by
  obtain ⟨r, rfl, _, _⟩ := y
  rfl

theorem rd_nullary (y : TRef sig Ty) (v : Ty.Contents Val) (V : Valuation τ sig Val) :
    rd ((TRef.nullary y v : HloOp τ sig Val).result V) y = v := by
  unfold rd; rw [nullary_result]; exact ofBuf_toBuf y v

theorem rd_unary (x : TRef sig Tx) (y : TRef sig Ty) (f : Tx.Contents Val → Ty.Contents Val) (V : Valuation τ sig Val) :
    rd ((TRef.unary x y f : HloOp τ sig Val).result V) y = f (rd V x) := by
  unfold rd; rw [unary_result]; exact ofBuf_toBuf y _

theorem rd_binary (a : TRef sig Ta) (b : TRef sig Tb) (y : TRef sig Ty) (f : Ta.Contents Val → Tb.Contents Val → Ty.Contents Val)
    (V : Valuation τ sig Val) : rd ((TRef.binary a b y f : HloOp τ sig Val).result V) y = f (rd V a) (rd V b) := by
  unfold rd; rw [binary_result]; exact ofBuf_toBuf y _

theorem rd_nullary_ne {r : TRef sig T} (y : TRef sig Ty) (v : Ty.Contents Val) (V : Valuation τ sig Val) (h : r.ref ≠ y.ref) :
    rd ((TRef.nullary y v : HloOp τ sig Val).result V) r = rd V r := by
  unfold rd; rw [nullary_result_ne]; exact h

theorem rd_unary_ne {r : TRef sig T} (x : TRef sig Tx) (y : TRef sig Ty) (f : Tx.Contents Val → Ty.Contents Val) (V : Valuation τ sig Val)
    (h : r.ref ≠ y.ref) : rd ((TRef.unary x y f : HloOp τ sig Val).result V) r = rd V r := by
  unfold rd; rw [unary_result_ne]; exact h

theorem rd_binary_ne {r : TRef sig T} (a : TRef sig Ta) (b : TRef sig Tb) (y : TRef sig Ty)
    (f : Ta.Contents Val → Tb.Contents Val → Ty.Contents Val) (V : Valuation τ sig Val) (h : r.ref ≠ y.ref) :
    rd ((TRef.binary a b y f : HloOp τ sig Val).result V) r = rd V r := by
  unfold rd; rw [binary_result_ne]; exact h

end

/-! ## The prologue -/

section
variable {F : FTy → Type} [FloatOps F]

abbrev pcPro : List (HloOp τ sig (Elt F)) :=
  [ nullary main_cst (constant S_ .f32 0x3F000000#32),
    unary main_cst main_v0 (broadcastInDim S8x1x352x352 ![] bcast_S_S8x1x352x352),
    binary main_arg0 main_v0 main_v1 (cmpf .ogt),
    unary main_v1 main_v2 (uitofp .f32),
    nullary main_cst_0 (constant S_ .f32 0x3F800000#32),
    unary main_cst_0 main_v3 (broadcastInDim S8x1x352x352 ![] bcast_S_S8x1x352x352),
    binary main_v3 main_v2 main_v4 subf,
    nullary main_cst_1 (constant S_ .f32 0xFF800000#32),
    unary main_cst_1 main_v5 (broadcastInDim S_ ![] bcast_S_S_),
    binary main_v4 main_v5 main_v6 (fun x v => Host.reduceWindow FloatOps.maximumf ![1, 1, 5, 5] ![1, 1, 1, 1] ![0, 0, 2, 2] ![0, 0, 2, 2] x v reduceWindows_S8x1x352x352_S8x1x352x352_w1s1p0_0_w1s1p0_0_w5s1p2_2_w5s1p2_2 h_S_),
    nullary main_cst_2 (constant S_ .f32 0x3F800000#32),
    unary main_cst_2 main_v7 (broadcastInDim S8x1x352x352 ![] bcast_S_S8x1x352x352),
    binary main_v7 main_v6 main_v8 subf,
    nullary main_cst_3 (constant S_ .f32 0xFF800000#32),
    unary main_cst_3 main_v9 (broadcastInDim S_ ![] bcast_S_S_),
    binary main_v2 main_v9 main_v10 (fun x v => Host.reduceWindow FloatOps.maximumf ![1, 1, 5, 5] ![1, 1, 1, 1] ![0, 0, 2, 2] ![0, 0, 2, 2] x v reduceWindows_S8x1x352x352_S8x1x352x352_w1s1p0_0_w1s1p0_0_w5s1p2_2_w5s1p2_2 h_S_),
    binary main_v10 main_v8 main_v11 subf,
    binary main_arg1 main_arg0 main_v12 (fun a b => concatenate S8x4x352x352 1 [⟨S8x3x352x352, a⟩, ⟨S8x1x352x352, b⟩] concatenates_S8x3x352x352_S8x1x352x352_S8x4x352x352_d1),
    nullary main_c (constantI S_ 32 0#32),
    TRef.unary (TRef.of (T := ⟨S_, .i32⟩) main_c) (TRef.of (T := ⟨S_, .f32⟩) main_call0_v0) (sitofp .f32),
    TRef.binary (TRef.of (T := ⟨S8x4x352x352, .f32⟩) main_v12) (TRef.of (T := ⟨S_, .f32⟩) main_call0_v0) (TRef.of (T := ⟨S8x4x362x362, .f32⟩) main_v13) (fun x v => pad S8x4x362x362 ![0, 0, 5, 5] ![0, 0, 5, 5] ![0, 0, 0, 0] x v pads_S8x4x352x352_S8x4x362x362_000_000_550_550 h_S_),
    unary main_v12 main_v14 (extractStridedSlice S8x3x352x352 ![0, 0, 0, 0] · slices_S8x4x352x352_S8x3x352x352_0_0_0_0),
    unary main_v12 main_v15 (extractStridedSlice S8x1x352x352 ![0, 3, 0, 0] · slices_S8x4x352x352_S8x1x352x352_0_3_0_0),
    nullary main_cst_4 (constant S_ .f32 0x00000000#32),
    unary main_cst_4 main_v16 (broadcastInDim S8x1x352x352 ![] bcast_S_S8x1x352x352) ]

/-- What the run of a straight line of operations asks of each of them. -/
def Ok (op : HloOp τ sig (Elt F)) : Prop := op.bufs ⊆ tcRefs τ sig ∧ op.fresh = ∅

theorem pcPro_ok : ∀ op ∈ (pcPro : List (HloOp τ sig (Elt F))), Ok op := by
  intro _ h; (repeat (cases h with | head => exact ⟨by simp, rfl⟩ | tail _ h => ?_)); exact nomatch h

end

set_option maxHeartbeats 4000000 in
theorem pro_base (V : Valuation τ sig (Elt Ideal)) :
    Base (V (Proc.devRef .tc main_arg0)) (V (Proc.devRef .tc main_arg1)) (after (pcPro (F := Ideal)) V)
    ∧ AccAt (V (Proc.devRef .tc main_arg0)) (V (Proc.devRef .tc main_arg1)) (rd (after (pcPro (F := Ideal)) V) (acc 0)) 0 := by
  refine ⟨⟨?_, ?_, ?_, ?_, ?_, ?_⟩, ?_⟩
  · unfold padOf catOf; after_results_simp <;> rfl
  · unfold catOf; after_results_simp <;> rfl
  · unfold catOf; after_results_simp <;> rfl
  · unfold maskOf; after_results_simp <;> rfl
  · after_results_simp
  · after_results_simp
  · intro n h w
    have e : after (pcPro (F := Ideal)) V (Proc.devRef .tc main_v16) = broadcastInDim S8x1x352x352 ![] bcast_S_S8x1x352x352 (constant (F := Ideal) S_ .f32 0x00000000#32) := by
      after_results_simp <;> rfl
    exact congrFun e _

end Cert.ReferenceIdeal.Run

end
-- ==== Proof.RefStep.lean ====
import proofs.«145020_j56358560858814_1_alg».proof.Proof.RefBase

noncomputable section

namespace Cert.ReferenceIdeal.Run

open Cert.ReferenceIdeal Cert.ReferenceIdeal.Gen Idealize.ShloMosaic Idealize.ShloMosaic.TcCoe Idealize.SL.Sem Idealize.ShloMosaic.StableHlo
open Idealize.ShloMosaic.ValueIdx Cert.Contour

section
variable {F : FTy → Type} [FloatOps F]

/-- The sixteen operations of shift number `k`, which is `(k / 11, k % 11)`. -/
def shiftOps (k : ℕ) (hk : k < 121 := by omega) : List (HloOp τ sig (Elt F)) :=
  [ TRef.unary (pb ⟨S8x4x362x362, .f32⟩ 22) (sb A4 k hk 0) (extractStridedSlice S8x4x352x352 ![0, 0, k / 11, k % 11] · (slices_win ⟨k, hk⟩)),
    TRef.unary (sb A4 k hk 0) (sb A3 k hk 1) (extractStridedSlice S8x3x352x352 ![0, 0, 0, 0] · slices_S8x4x352x352_S8x3x352x352_0_0_0_0),
    TRef.binary (sb A3 k hk 1) (pb A3 23) (sb A3 k hk 2) subf,
    TRef.unary (sb A4 k hk 0) (sb A1 k hk 3) (extractStridedSlice S8x1x352x352 ![0, 3, 0, 0] · slices_S8x4x352x352_S8x1x352x352_0_3_0_0),
    TRef.binary (sb A1 k hk 3) (pb A1 24) (sb A1 k hk 4) subf,
    TRef.unary (sb A1 k hk 4) (sb A1 k hk 5) Host.absf,
    TRef.binary (sb A3 k hk 2) (sb A3 k hk 2) (sb A3 k hk 6) mulf,
    TRef.nullary (sb Sc k hk 7) (constant S_ .f32 0x00000000#32),
    TRef.binary (sb A3 k hk 6) (sb Sc k hk 7) (sb A0 k hk 8) (fun x v => Host.reduceAdd x v reducesTo_S8x3x352x352_S8x352x352_d1 h_S_),
    TRef.unary (sb A0 k hk 8) (sb A1 k hk 9) (broadcastInDim S8x1x352x352 ![0, 2, 3] bcast_S8x352x352_S8x1x352x352_0_2_3),
    TRef.nullary (sb Sc k hk 10) (constant S_ .f32 0xC3480000#32),
    TRef.unary (sb Sc k hk 10) (sb A1 k hk 11) (broadcastInDim S8x1x352x352 ![] bcast_S_S8x1x352x352),
    TRef.binary (sb A1 k hk 11) (sb A1 k hk 9) (sb A1 k hk 12) mulf,
    TRef.unary (sb A1 k hk 12) (sb A1 k hk 13) Host.exp,
    TRef.binary (sb A1 k hk 13) (sb A1 k hk 5) (sb A1 k hk 14) mulf,
    TRef.binary (acc k) (sb A1 k hk 14) (acc (k + 1)) addf ]

theorem shiftOps_ok (k : ℕ) (hk : k < 121) : ∀ op ∈ (shiftOps k hk : List (HloOp τ sig (Elt F))), Ok op := by
  intro _ h; (repeat (cases h with | head => exact ⟨by simp, rfl⟩ | tail _ h => ?_)); exact nomatch h

end

/-- A shift writes none of the prologue's buffers. -/
theorem shift_keeps (k : ℕ) (hk : k < 121) (V : Valuation τ sig (Elt Ideal)) (T : BufTy) (i : ℕ) (hi : i < 27) (hT : hbmTy i = T) :
    rd (after (shiftOps (F := Ideal) k hk) V) (pb T i hi hT) = rd V (pb T i hi hT) := by
  simp (disch := exact tr_ne (by omega)) only [shiftOps, after_cons, after_nil, rd_nullary_ne, rd_unary_ne, rd_binary_ne]

set_option maxHeartbeats 1000000 in
/-- Shift `k` keeps the prologue's arrays and adds its term to the loss map at every pixel. -/
theorem step (a0 : FVec Ideal S8x1x352x352 .f32) (a1 : FVec Ideal S8x3x352x352 .f32) (k : ℕ) (hk : k < 121) (V : Valuation τ sig (Elt Ideal))
    (hb : Base a0 a1 V) (hacc : AccAt a0 a1 (rd V (acc k)) k) :
    Base a0 a1 (after (shiftOps (F := Ideal) k hk) V) ∧ AccAt a0 a1 (rd (after (shiftOps (F := Ideal) k hk) V) (acc (k + 1))) (k + 1) := by
  refine ⟨⟨(shift_keeps k hk V _ 22 (by omega) rfl).trans hb.pad, (shift_keeps k hk V _ 23 (by omega) rfl).trans hb.crgb,
    (shift_keeps k hk V _ 24 (by omega) rfl).trans hb.csal, (shift_keeps k hk V _ 18 (by omega) rfl).trans hb.mask,
    (shift_keeps k hk V _ 0 (by omega) rfl).trans hb.arg0, (shift_keeps k hk V _ 1 (by omega) rfl).trans hb.arg1⟩, fun n h w => ?_⟩
  simp (disch := exact tr_ne (by omega)) only [shiftOps, after_cons, after_nil, rd_nullary, rd_unary, rd_binary, rd_nullary_ne, rd_unary_ne, rd_binary_ne]
  rw [show rd V (pb ⟨S8x4x362x362, .f32⟩ 22) = padOf a0 a1 from hb.pad, show rd V (pb A3 23) = _ from hb.crgb, show rd V (pb A1 24) = _ from hb.csal]
  unfold padOf
  rw [Shift.shift_apply, hacc n h w]
  rfl

end Cert.ReferenceIdeal.Run

end
-- ==== Proof.RefEpi.lean ====
import proofs.«145020_j56358560858814_1_alg».proof.Proof.RefBase

noncomputable section

namespace Cert.ReferenceIdeal.Run

open Cert.ReferenceIdeal Cert.ReferenceIdeal.Gen Idealize.ShloMosaic Idealize.ShloMosaic.TcCoe Idealize.SL.Sem Idealize.ShloMosaic.StableHlo
open Idealize.ShloMosaic.ValueIdx Cert.Contour

/-- The indices of an [8, 1, 352, 352] array are the triples (batch image, row, column). -/
def idxEquiv : (⟨4, ![8, 1, 352, 352]⟩ : Shape).Idx ≃ Fin 8 × Fin 352 × Fin 352 where
  toFun i := (i 0, i 2, i 3)
  invFun p := ix4 p.1 0 p.2.1 p.2.2
  left_inv i := by
    funext a
    match a with
    | ⟨0, _⟩ => rfl
    | ⟨1, _⟩ => exact Fin.ext (by have h1 : (i 1).val < 1 := (i 1).isLt; show 0 = (i 1).val; omega)
    | ⟨2, _⟩ => rfl
    | ⟨3, _⟩ => rfl
  right_inv _ := rfl

theorem sum_idx (f : (⟨4, ![8, 1, 352, 352]⟩ : Shape).Idx → EReal) :
    ∑ i, f i = ∑ n : Fin 8, ∑ h : Fin 352, ∑ w : Fin 352, f (ix4 n 0 h w) := by
  rw [← Equiv.sum_comp idxEquiv.symm f, Fintype.sum_prod_type]
  refine Finset.sum_congr rfl fun n _ => ?_
  rw [Fintype.sum_prod_type]
  rfl

section
variable {F : FTy → Type} [FloatOps F]

/-- The epilogue: the mask-weighted sum of the loss map, the mask's sum, their quotient. -/
abbrev pcEpi : List (HloOp τ sig (Elt F)) :=
  [ binary main_v1710 main_v11 main_v1711 mulf,
    nullary main_cst_247 (constant S_ .f32 0x00000000#32),
    binary main_v1711 main_cst_247 main_v1712 (fun x v => Host.reduceAdd x v reducesTo_S8x1x352x352_S_d0_1_2_3 h_S_),
    nullary main_cst_248 (constant S_ .f32 0x00000000#32),
    binary main_v11 main_cst_248 main_v1713 (fun x v => Host.reduceAdd x v reducesTo_S8x1x352x352_S_d0_1_2_3 h_S_),
    nullary main_cst_249 (constant S_ .f32 0x358637BD#32),
    binary main_v1713 main_cst_249 main_v1714 addf,
    binary main_v1712 main_v1714 main_v1715 Host.divf  ]

theorem pcEpi_ok : ∀ op ∈ (pcEpi : List (HloOp τ sig (Elt F))), Ok op := by
  intro _ h; (repeat (cases h with | head => exact ⟨by simp, rfl⟩ | tail _ h => ?_)); exact nomatch h

end

theorem total_sum (x : FVec Ideal S8x1x352x352 .f32) (i : S_.Idx) :
    Host.reduceAdd x (constant (F := Ideal) S_ .f32 0x00000000#32) reducesTo_S8x1x352x352_S_d0_1_2_3 h_S_ i
      = ∑ n : Fin 8, ∑ h : Fin 352, ∑ w : Fin 352, x (ix4 n 0 h w) := by
  show Ideal.hostReduceAdd reducesTo_S8x1x352x352_S_d0_1_2_3 x (Ideal.ofBits .f32 0x00000000#32) i = _
  rw [Ideal.hostReduceAdd_total _ (fun b => b.elim0), Ideal.ofBits_zero_f32, zero_add, sum_idx]

theorem quotient_at (x y : FVec Ideal S_ .f32) (b : BitVec 32) (i : S_.Idx) :
    Host.divf (F := Ideal) x (addf y (constant S_ .f32 b)) i = Ideal.div (x i) (y i + Ideal.ofBits .f32 b) := rfl

set_option maxHeartbeats 4000000 in
/-- After the epilogue the result buffer holds the contour loss of the full loss map and the mask; the arguments are kept. -/
theorem epi_value (a0 : FVec Ideal S8x1x352x352 .f32) (a1 : FVec Ideal S8x3x352x352 .f32) (V : Valuation τ sig (Elt Ideal)) (hb : Base a0 a1 V)
    (hacc : AccAt a0 a1 (V (Proc.devRef .tc main_v1710)) 121) :
    after (pcEpi (F := Ideal)) V (Proc.devRef .tc main_v1715)
        = (fun _ => contour (fun n h w => lossUpTo (read4 (padOf a0 a1) n) h.val w.val 121) (fun n h w => maskOf a0 (ix4 n 0 h w)))
      ∧ after (pcEpi (F := Ideal)) V (Proc.devRef .tc main_arg0) = a0
      ∧ after (pcEpi (F := Ideal)) V (Proc.devRef .tc main_arg1) = a1 := by
  have ka0 : after (pcEpi (F := Ideal)) V (Proc.devRef .tc main_arg0) = V (Proc.devRef .tc main_arg0) := by after_results_simp
  have ka1 : after (pcEpi (F := Ideal)) V (Proc.devRef .tc main_arg1) = V (Proc.devRef .tc main_arg1) := by after_results_simp
  have e : after (pcEpi (F := Ideal)) V (Proc.devRef .tc main_v1715)
      = Host.divf (F := Ideal) (Host.reduceAdd (mulf (V (Proc.devRef .tc main_v1710)) (V (Proc.devRef .tc main_v11))) (constant S_ .f32 0x00000000#32) reducesTo_S8x1x352x352_S_d0_1_2_3 h_S_)
          (addf (Host.reduceAdd (V (Proc.devRef .tc main_v11)) (constant S_ .f32 0x00000000#32) reducesTo_S8x1x352x352_S_d0_1_2_3 h_S_) (constant S_ .f32 0x358637BD#32)) := by
    after_results_simp <;> rfl
  refine ⟨?_, ka0.trans hb.arg0, ka1.trans hb.arg1⟩
  rw [e, hb.mask]
  funext i
  rw [quotient_at, total_sum, total_sum]
  unfold contour
  simp only [mulf_apply, hacc _ _ _]

end Cert.ReferenceIdeal.Run

end
-- ==== Proof.RefRun.lean ====
import proofs.«145020_j56358560858814_1_alg».proof.Proof.RefStep
import proofs.«145020_j56358560858814_1_alg».proof.Proof.RefEpi
import Idealize.ShloMosaic.Lib.Pipeline.Frame

noncomputable section

namespace Cert.ReferenceIdeal.Run

open Cert.ReferenceIdeal Cert.ReferenceIdeal.Gen Idealize.ShloMosaic Idealize.ShloMosaic.TcCoe Idealize.SL.Sem Idealize.ShloMosaic.StableHlo
open Idealize.ShloMosaic.ValueIdx Cert.Contour

theorem take_drop_append {α : Type} (n : ℕ) (l r : List α) : l.take n ++ (l.drop n ++ r) = l ++ r := by
  rw [← List.append_assoc, List.take_append_drop]

section
variable {F : FTy → Type} [FloatOps F]

/-- Shifts `k, …, k + n - 1` in order. -/
def shiftsFrom : (n k : ℕ) → k + n ≤ 121 → List (HloOp τ sig (Elt F))
  | 0, _, _ => []
  | n + 1, k, h => shiftOps k ++ shiftsFrom n (k + 1) (by omega)

theorem shiftsFrom_ok : ∀ (n k : ℕ) (h : k + n ≤ 121), ∀ op ∈ (shiftsFrom n k h : List (HloOp τ sig (Elt F))), Ok op
  | 0, _, _ => fun _ h => nomatch h
  | n + 1, k, h => fun op hop => (List.mem_append.1 hop).elim (shiftOps_ok k _ op) (shiftsFrom_ok n (k + 1) _ op)

/-- The prologue, the 121 shifts and the epilogue, in order. -/
def allOps : List (HloOp τ sig (Elt F)) := pcPro ++ (shiftsFrom 121 0 (by omega) ++ pcEpi)

theorem allOps_ok : ∀ op ∈ (allOps : List (HloOp τ sig (Elt F))), Ok op := fun op h =>
  (List.mem_append.1 h).elim (pcPro_ok op) fun h => (List.mem_append.1 h).elim (shiftsFrom_ok _ _ _ op) (pcEpi_ok op)

/-- The program's 33 consecutive stretches: each a run of whole shifts, with a part of a shift at either end. -/
def win : ℕ → List (HloOp τ sig (Elt F))
  | 0 => pcPro ++ (shiftOps 0 ++ (shiftOps 1 ++ (shiftOps 2).take 4))
  | 1 => (shiftOps 2).drop 4 ++ (shiftOps 3 ++ (shiftOps 4 ++ shiftOps 5))
  | 2 => shiftOps 6 ++ (shiftOps 7 ++ (shiftOps 8 ++ (shiftOps 9).take 12))
  | 3 => (shiftOps 9).drop 12 ++ (shiftOps 10 ++ (shiftOps 11 ++ (shiftOps 12 ++ (shiftOps 13).take 8)))
  | 4 => (shiftOps 13).drop 8 ++ (shiftOps 14 ++ (shiftOps 15 ++ (shiftOps 16 ++ (shiftOps 17).take 4)))
  | 5 => (shiftOps 17).drop 4 ++ (shiftOps 18 ++ (shiftOps 19 ++ shiftOps 20))
  | 6 => shiftOps 21 ++ (shiftOps 22 ++ (shiftOps 23 ++ (shiftOps 24).take 12))
  | 7 => (shiftOps 24).drop 12 ++ (shiftOps 25 ++ (shiftOps 26 ++ (shiftOps 27 ++ (shiftOps 28).take 8)))
  | 8 => (shiftOps 28).drop 8 ++ (shiftOps 29 ++ (shiftOps 30 ++ (shiftOps 31 ++ (shiftOps 32).take 4)))
  | 9 => (shiftOps 32).drop 4 ++ (shiftOps 33 ++ (shiftOps 34 ++ shiftOps 35))
  | 10 => shiftOps 36 ++ (shiftOps 37 ++ (shiftOps 38 ++ (shiftOps 39).take 12))
  | 11 => (shiftOps 39).drop 12 ++ (shiftOps 40 ++ (shiftOps 41 ++ (shiftOps 42 ++ (shiftOps 43).take 8)))
  | 12 => (shiftOps 43).drop 8 ++ (shiftOps 44 ++ (shiftOps 45 ++ (shiftOps 46 ++ (shiftOps 47).take 4)))
  | 13 => (shiftOps 47).drop 4 ++ (shiftOps 48 ++ (shiftOps 49 ++ shiftOps 50))
  | 14 => shiftOps 51 ++ (shiftOps 52 ++ (shiftOps 53 ++ (shiftOps 54).take 12))
  | 15 => (shiftOps 54).drop 12 ++ (shiftOps 55 ++ (shiftOps 56 ++ (shiftOps 57 ++ (shiftOps 58).take 8)))
  | 16 => (shiftOps 58).drop 8 ++ (shiftOps 59 ++ (shiftOps 60 ++ (shiftOps 61 ++ (shiftOps 62).take 4)))
  | 17 => (shiftOps 62).drop 4 ++ (shiftOps 63 ++ (shiftOps 64 ++ shiftOps 65))
  | 18 => shiftOps 66 ++ (shiftOps 67 ++ (shiftOps 68 ++ (shiftOps 69).take 12))
  | 19 => (shiftOps 69).drop 12 ++ (shiftOps 70 ++ (shiftOps 71 ++ (shiftOps 72 ++ (shiftOps 73).take 8)))
  | 20 => (shiftOps 73).drop 8 ++ (shiftOps 74 ++ (shiftOps 75 ++ (shiftOps 76 ++ (shiftOps 77).take 4)))
  | 21 => (shiftOps 77).drop 4 ++ (shiftOps 78 ++ (shiftOps 79 ++ shiftOps 80))
  | 22 => shiftOps 81 ++ (shiftOps 82 ++ (shiftOps 83 ++ (shiftOps 84).take 12))
  | 23 => (shiftOps 84).drop 12 ++ (shiftOps 85 ++ (shiftOps 86 ++ (shiftOps 87 ++ (shiftOps 88).take 8)))
  | 24 => (shiftOps 88).drop 8 ++ (shiftOps 89 ++ (shiftOps 90 ++ (shiftOps 91 ++ (shiftOps 92).take 4)))
  | 25 => (shiftOps 92).drop 4 ++ (shiftOps 93 ++ (shiftOps 94 ++ shiftOps 95))
  | 26 => shiftOps 96 ++ (shiftOps 97 ++ (shiftOps 98 ++ (shiftOps 99).take 12))
  | 27 => (shiftOps 99).drop 12 ++ (shiftOps 100 ++ (shiftOps 101 ++ (shiftOps 102 ++ (shiftOps 103).take 8)))
  | 28 => (shiftOps 103).drop 8 ++ (shiftOps 104 ++ (shiftOps 105 ++ (shiftOps 106 ++ (shiftOps 107).take 4)))
  | 29 => (shiftOps 107).drop 4 ++ (shiftOps 108 ++ (shiftOps 109 ++ shiftOps 110))
  | 30 => shiftOps 111 ++ (shiftOps 112 ++ (shiftOps 113 ++ (shiftOps 114).take 12))
  | 31 => (shiftOps 114).drop 12 ++ (shiftOps 115 ++ (shiftOps 116 ++ (shiftOps 117 ++ (shiftOps 118).take 8)))
  | 32 => (shiftOps 118).drop 8 ++ (shiftOps 119 ++ (shiftOps 120 ++ pcEpi))
  | _ => []

theorem part0_eq (d : Dev nD) : main_part0 (F := F) d = seq (win 0) := rfl
theorem part1_eq (d : Dev nD) : main_part1 (F := F) d = seq (win 1) := rfl
theorem part2_eq (d : Dev nD) : main_part2 (F := F) d = seq (win 2) := rfl
theorem part3_eq (d : Dev nD) : main_part3 (F := F) d = seq (win 3) := rfl
theorem part4_eq (d : Dev nD) : main_part4 (F := F) d = seq (win 4) := rfl
theorem part5_eq (d : Dev nD) : main_part5 (F := F) d = seq (win 5) := rfl
theorem part6_eq (d : Dev nD) : main_part6 (F := F) d = seq (win 6) := rfl
theorem part7_eq (d : Dev nD) : main_part7 (F := F) d = seq (win 7) := rfl
theorem part8_eq (d : Dev nD) : main_part8 (F := F) d = seq (win 8) := rfl
theorem part9_eq (d : Dev nD) : main_part9 (F := F) d = seq (win 9) := rfl
theorem part10_eq (d : Dev nD) : main_part10 (F := F) d = seq (win 10) := rfl
theorem part11_eq (d : Dev nD) : main_part11 (F := F) d = seq (win 11) := rfl
theorem part12_eq (d : Dev nD) : main_part12 (F := F) d = seq (win 12) := rfl
theorem part13_eq (d : Dev nD) : main_part13 (F := F) d = seq (win 13) := rfl
theorem part14_eq (d : Dev nD) : main_part14 (F := F) d = seq (win 14) := rfl
theorem part15_eq (d : Dev nD) : main_part15 (F := F) d = seq (win 15) := rfl
theorem part16_eq (d : Dev nD) : main_part16 (F := F) d = seq (win 16) := rfl
theorem part17_eq (d : Dev nD) : main_part17 (F := F) d = seq (win 17) := rfl
theorem part18_eq (d : Dev nD) : main_part18 (F := F) d = seq (win 18) := rfl
theorem part19_eq (d : Dev nD) : main_part19 (F := F) d = seq (win 19) := rfl
theorem part20_eq (d : Dev nD) : main_part20 (F := F) d = seq (win 20) := rfl
theorem part21_eq (d : Dev nD) : main_part21 (F := F) d = seq (win 21) := rfl
theorem part22_eq (d : Dev nD) : main_part22 (F := F) d = seq (win 22) := rfl
theorem part23_eq (d : Dev nD) : main_part23 (F := F) d = seq (win 23) := rfl
theorem part24_eq (d : Dev nD) : main_part24 (F := F) d = seq (win 24) := rfl
theorem part25_eq (d : Dev nD) : main_part25 (F := F) d = seq (win 25) := rfl
theorem part26_eq (d : Dev nD) : main_part26 (F := F) d = seq (win 26) := rfl
theorem part27_eq (d : Dev nD) : main_part27 (F := F) d = seq (win 27) := rfl
theorem part28_eq (d : Dev nD) : main_part28 (F := F) d = seq (win 28) := rfl
theorem part29_eq (d : Dev nD) : main_part29 (F := F) d = seq (win 29) := rfl
theorem part30_eq (d : Dev nD) : main_part30 (F := F) d = seq (win 30) := rfl
theorem part31_eq (d : Dev nD) : main_part31 (F := F) d = seq (win 31) := rfl
theorem part32_eq (d : Dev nD) : main_part32 (F := F) d = seq (win 32) := rfl

/-- The stretches in order are the whole list: a shift that two stretches share is its two parts. -/
theorem wins_eq : (win 0 ++ (win 1 ++ (win 2 ++ (win 3 ++ (win 4 ++ (win 5 ++ (win 6 ++ (win 7 ++ (win 8 ++ (win 9 ++ (win 10 ++ (win 11 ++ (win 12 ++ (win 13 ++ (win 14 ++ (win 15 ++ (win 16 ++ (win 17 ++ (win 18 ++ (win 19 ++ (win 20 ++ (win 21 ++ (win 22 ++ (win 23 ++ (win 24 ++ (win 25 ++ (win 26 ++ (win 27 ++ (win 28 ++ (win 29 ++ (win 30 ++ (win 31 ++ (win 32)))))))))))))))))))))))))))))))) : List (HloOp τ sig (Elt F))) = allOps := by
  simp only [win, allOps, shiftsFrom, List.append_assoc, take_drop_append, List.nil_append, Nat.reduceAdd]

theorem main_eq (d : Dev nD) : main (F := F) d = seq allOps := by
  rw [← wins_eq]
  simp only [seq_append, ← part0_eq d, ← part1_eq d, ← part2_eq d, ← part3_eq d, ← part4_eq d, ← part5_eq d, ← part6_eq d, ← part7_eq d, ← part8_eq d, ← part9_eq d, ← part10_eq d, ← part11_eq d, ← part12_eq d, ← part13_eq d, ← part14_eq d, ← part15_eq d, ← part16_eq d, ← part17_eq d, ← part18_eq d, ← part19_eq d, ← part20_eq d, ← part21_eq d, ← part22_eq d, ← part23_eq d, ← part24_eq d, ← part25_eq d, ← part26_eq d, ← part27_eq d, ← part28_eq d, ← part29_eq d, ← part30_eq d, ← part31_eq d, ← part32_eq d]
  rfl

end

/-- Through shifts `k, …, k + n - 1` the prologue's arrays stay, and the loss map gains those shifts' terms. -/
theorem inv_from (a0 : FVec Ideal S8x1x352x352 .f32) (a1 : FVec Ideal S8x3x352x352 .f32) :
    ∀ (n k : ℕ) (h : k + n ≤ 121) (V : Valuation τ sig (Elt Ideal)), Base a0 a1 V → AccAt a0 a1 (rd V (acc k)) k →
      Base a0 a1 (after (shiftsFrom (F := Ideal) n k h) V) ∧ AccAt a0 a1 (rd (after (shiftsFrom (F := Ideal) n k h) V) (acc (k + n))) (k + n)
  | 0, _, _, _, hb, ha => ⟨hb, ha⟩
  | n + 1, k, h, V, hb, ha => by
    have s := step a0 a1 k (by omega) V hb ha
    have r := inv_from a0 a1 n (k + 1) (by omega) _ s.1 s.2
    rw [shiftsFrom, StableHlo.after_append]
    simpa only [Nat.add_assoc, Nat.add_comm 1 n] using r

theorem scopedRefs_eq : (Finset.univ.filter fun b : Ref sig .tc => b.isScoped) = ∅ := by decide
theorem scopedSems_eq : (Finset.univ.filter fun sm : SemLoc sig => sm.isScoped .tc) = ∅ := by decide

/-- The reference's run: the result buffer ends at the contour loss of the 121-shift loss map and the mask, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1715)
          = (fun _ => contour
              (fun n h w => lossUpTo (read4 (padOf (m ((c.tc : Thread nD τ).loc main_arg0)) (m ((c.tc : Thread nD τ).loc main_arg1))) n) h.val w.val 121)
              (fun n h w => maskOf (m ((c.tc : Thread nD τ).loc main_arg0)) (ix4 n 0 h w)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      have p := pro_base (launchContents m c)
      have i := inv_from _ _ 121 0 (by omega) _ p.1 p.2
      have hv := epi_value _ _ _ i.1 i.2
      rw [← StableHlo.after_append, ← StableHlo.after_append] at hv
      exact ⟨(h c main_v1715).trans hv.1, (h c main_arg0).trans hv.2.1, (h c main_arg1).trans hv.2.2⟩)
    (run_seq scopedRefs_eq scopedSems_eq defs main (fun _ => allOps) main_eq
      (fun _ => List.forall_iff_forall_mem.2 fun op h => (allOps_ok op h).1) m ρ (fun _ op h => (allOps_ok op h).2))

end Cert.ReferenceIdeal.Run

end
-- ==== Proof.lean ====
/- Both programs add, to the same f32 zero and in the same order, the same 121 shift terms at every pixel; the kernel then sums
   (loss map * mask) and the mask image by image and the host adds the eight numbers, the reference sums over all indices at once.
   Sums of extended reals may be regrouped, so the two quotients agree, and no finiteness of the inputs is used. -/
import proofs.«145020_j56358560858814_1_alg».proof.Defs
import proofs.«145020_j56358560858814_1_alg».proof.Proof.Gen.Kernel
import proofs.«145020_j56358560858814_1_alg».proof.Proof.Gen.Kernel.Skeleton
import proofs.«145020_j56358560858814_1_alg».proof.Proof.Gen.Kernel.Launch
import proofs.«145020_j56358560858814_1_alg».proof.Proof.Gen.Kernel.Points
import proofs.«145020_j56358560858814_1_alg».proof.Proof.Gen.Kernel.Frame
import proofs.«145020_j56358560858814_1_alg».proof.Proof.Gen.KernelIdeal
import proofs.«145020_j56358560858814_1_alg».proof.Proof.Gen.KernelIdeal.Skeleton
import proofs.«145020_j56358560858814_1_alg».proof.Proof.Gen.KernelIdeal.Launch
import proofs.«145020_j56358560858814_1_alg».proof.Proof.Gen.KernelIdeal.Points
import proofs.«145020_j56358560858814_1_alg».proof.Proof.Gen.KernelIdeal.Frame
import proofs.«145020_j56358560858814_1_alg».proof.Proof.Gen.ReferenceIdeal
import proofs.«145020_j56358560858814_1_alg».proof.Proof.Gen.Pre_finite_inputs
import proofs.«145020_j56358560858814_1_alg».proof.Proof.KernelValue
import proofs.«145020_j56358560858814_1_alg».proof.Proof.RefRun
import Idealize.ShloMosaic.Adequacy
import Idealize.ShloMosaic.Init

noncomputable section

namespace Cert.Proof

open Idealize.ShloMosaic Idealize.ShloMosaic.TcCoe Idealize.SL.Sem Cert.Contour

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Run.run m ρ)

/-- The padded four-channel array the kernel's region finds is the reference's, of the same arguments. -/
theorem pad_eq (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v13
      = Cert.ReferenceIdeal.Run.padOf (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
  (Cert.KernelIdeal.Result.V_pad m c).trans rfl

/-- The mask the kernel's region finds is the reference's, of the same saliency map. -/
theorem mask_eq (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v11
      = Cert.ReferenceIdeal.Run.maskOf (m ((c.tc : Thread Cert.KernelIdeal.nD Cert.KernelIdeal.τ).loc Cert.KernelIdeal.main_arg0)) :=
  (Cert.KernelIdeal.Result.V_mask m c).trans rfl

/-- Both programs end at the contour loss of the same loss map and the same mask. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Run.run m' ρ')
  rw [(hagree c).1, (hagree c).2, pad_eq, mask_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
